-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x262144x3 : Shape := ⟨3, ![1, 262144, 3]⟩
abbrev S1x262144 : Shape := ⟨2, ![1, 262144]⟩
abbrev S1x262144x128 : Shape := ⟨3, ![1, 262144, 128]⟩
abbrev S_ : Shape := ⟨0, ![]⟩

class Facts : Prop where
  bcast_S_S1x262144x3 : S_.BroadcastsInDim S1x262144x3 (![] : Fin 0 → Fin S1x262144x3.rank)
  reducesTo_S1x262144x3_S_d0_1_2 : S1x262144x3.ReducesTo [0, 1, 2] S_
  h_S_ : 0 < S_.numel
  bcast_S_S1x262144x128 : S_.BroadcastsInDim S1x262144x128 (![] : Fin 0 → Fin S1x262144x128.rank)
  reducesTo_S1x262144x128_S_d0_1_2 : S1x262144x128.ReducesTo [0, 1, 2] S_

variable [Facts]

def fn {F : FTy → Type} [FloatOps F] (main_arg0 : FVec F S1x262144x3 .f32) (main_arg1 : IVec S1x262144 32) (main_arg2 : FVec F S1x262144x128 .f32) : IVec S_ 1 :=
  let main_v0 : FVec F S1x262144x3 .f32 := Host.absf main_arg0
  let main_cst : FVec F S_ .f32 := constant S_ .f32 0x7F800000#32
  let main_v1 : FVec F S1x262144x3 .f32 := broadcastInDim S1x262144x3 ![] bcast_S_S1x262144x3 main_cst
  let main_v2 : IVec S1x262144x3 1 := cmpf .olt main_v0 main_v1
  let main_c : IVec S_ 1 := constantI S_ 1 1#1
  let main_v3 : IVec S_ 1 := (fun x v => Host.reduce IntOp.andi x v reducesTo_S1x262144x3_S_d0_1_2 h_S_) main_v2 main_c
  let main_v4 : FVec F S1x262144x128 .f32 := Host.absf main_arg2
  let main_cst_0 : FVec F S_ .f32 := constant S_ .f32 0x7F800000#32
  let main_v5 : FVec F S1x262144x128 .f32 := broadcastInDim S1x262144x128 ![] bcast_S_S1x262144x128 main_cst_0
  let main_v6 : IVec S1x262144x128 1 := cmpf .olt main_v4 main_v5
  let main_c_1 : IVec S_ 1 := constantI S_ 1 1#1
  let main_v7 : IVec S_ 1 := (fun x v => Host.reduce IntOp.andi x v reducesTo_S1x262144x128_S_d0_1_2 h_S_) main_v6 main_c_1
  let main_v8 : IVec S_ 1 := andi main_v3 main_v7
  main_v8
-- ==== Kernel.lean ====
abbrev S1x262144x3 : Shape := ⟨3, ![1, 262144, 3]⟩
abbrev S1x262144 : Shape := ⟨2, ![1, 262144]⟩
abbrev S1x262144x128 : Shape := ⟨3, ![1, 262144, 128]⟩
abbrev S2x128x128 : Shape := ⟨3, ![2, 128, 128]⟩
abbrev S1x8192 : Shape := ⟨2, ![1, 8192]⟩
abbrev S1x8192x128 : Shape := ⟨3, ![1, 8192, 128]⟩
abbrev S1x128x128 : Shape := ⟨3, ![1, 128, 128]⟩
abbrev S128x128 : Shape := ⟨2, ![128, 128]⟩
abbrev S8192 : Shape := ⟨1, ![8192]⟩
abbrev S1x128 : Shape := ⟨2, ![1, 128]⟩
abbrev S8192x1 : Shape := ⟨2, ![8192, 1]⟩
abbrev S8192x128 : Shape := ⟨2, ![8192, 128]⟩
abbrev S_ : Shape := ⟨0, ![]⟩
abbrev S262144 : Shape := ⟨1, ![262144]⟩
abbrev S128 : Shape := ⟨1, ![128]⟩
abbrev S262144x1 : Shape := ⟨2, ![262144, 1]⟩
abbrev S128x1 : Shape := ⟨2, ![128, 1]⟩
abbrev S2x1x128 : Shape := ⟨3, ![2, 1, 128]⟩
abbrev S1x1x128 : Shape := ⟨3, ![1, 1, 128]⟩
abbrev S2x128 : Shape := ⟨2, ![2, 128]⟩
abbrev S19 : Shape := ⟨1, ![19]⟩
abbrev S19x128 : Shape := ⟨2, ![19, 128]⟩
abbrev S19x1x128 : Shape := ⟨3, ![19, 1, 128]⟩
abbrev S1x19x128 : Shape := ⟨3, ![1, 19, 128]⟩
abbrev S19x19x128 : Shape := ⟨3, ![19, 19, 128]⟩
abbrev S19x19 : Shape := ⟨2, ![19, 19]⟩
abbrev S1 : Shape := ⟨1, ![1]⟩

abbrev nBuf : Space → Nat
  | .hbm => 86
  | .vmem => 18
  | .smem => 0
  | _ => 0

abbrev bufTy : (tb : Table) → Fin (tcTables nBuf tb) → BufTy
  | .hbm, ⟨0, _⟩ => ⟨S1x262144x3, .f32⟩
  | .hbm, ⟨1, _⟩ => ⟨S1x262144, .i32⟩
  | .hbm, ⟨2, _⟩ => ⟨S1x262144x128, .f32⟩
  | .hbm, ⟨3, _⟩ => ⟨S2x128x128, .f32⟩
  | .hbm, ⟨4, _⟩ => ⟨S_, .f32⟩
  | .hbm, ⟨5, _⟩ => ⟨S128x128, .f32⟩
  | .hbm, ⟨6, _⟩ => ⟨S262144, .i32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S128, .f32⟩
  | .hbm, ⟨11, _⟩ => ⟨S262144x1, .i32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128x1, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128, .f32⟩
  | .hbm, ⟨22, _⟩ => ⟨S1x262144x3, .f32⟩
  | .hbm, ⟨23, _⟩ => ⟨S_, .f32⟩
  | .hbm, ⟨24, _⟩ => ⟨S1x262144, .f32⟩
  | .hbm, ⟨25, _⟩ => ⟨S1x262144, .f32⟩
  | .hbm, ⟨26, _⟩ => ⟨S1x262144, .f32⟩
  | .hbm, ⟨27, _⟩ => ⟨S1x262144, .f32⟩
  | .hbm, ⟨28, _⟩ => ⟨S_, .f32⟩
  | .hbm, ⟨29, _⟩ => ⟨S1x262144, .f32⟩
  | .hbm, ⟨30, _⟩ => ⟨S1x262144, .f32⟩
  | .hbm, ⟨31, _⟩ => ⟨S_, .f32⟩
  | .hbm, ⟨32, _⟩ => ⟨S1x262144, .f32⟩
  | .hbm, ⟨33, _⟩ => ⟨S1x262144, .f32⟩
  | .hbm, ⟨34, _⟩ => ⟨S1x128, .f32⟩
  | .hbm, ⟨35, _⟩ => ⟨S2x1x128, .f32⟩
  | .hbm, ⟨36, _⟩ => ⟨S2x128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S19, .f32⟩
  | .hbm, ⟨41, _⟩ => ⟨S_, .f32⟩
  | .hbm, ⟨42, _⟩ => ⟨S_, .f32⟩
  | .hbm, ⟨43, _⟩ => ⟨S19x128, .f32⟩
  | .hbm, ⟨44, _⟩ => ⟨S19x1x128, .f32⟩
  | .hbm, ⟨45, _⟩ => ⟨S1x19x128, .f32⟩
  | .hbm, ⟨46, _⟩ => ⟨S19x19x128, .f32⟩
  | .hbm, ⟨47, _⟩ => ⟨S19x19x128, .f32⟩
  | .hbm, ⟨48, _⟩ => ⟨S19x19x128, .f32⟩
  | .hbm, ⟨49, _⟩ => ⟨S19x19x128, .f32⟩
  | .hbm, ⟨50, _⟩ => ⟨S_, .f32⟩
  | .hbm, ⟨51, _⟩ => ⟨S19x19, .f32⟩
  | .hbm, ⟨52, _⟩ => ⟨S19x19, .i32⟩
  | .hbm, ⟨53, _⟩ => ⟨S19x19, .i32⟩
  | .hbm, ⟨54, _⟩ => ⟨S_, .i32⟩
  | .hbm, ⟨55, _⟩ => ⟨S19x19, .i32⟩
  | .hbm, ⟨56, _⟩ => ⟨S19x19, .i32⟩
  | .hbm, ⟨57, _⟩ => ⟨S19x19, .i1⟩
  | .hbm, ⟨58, _⟩ => ⟨S19x19, .f32⟩
  | .hbm, ⟨59, _⟩ => ⟨S_, .f32⟩
  | .hbm, ⟨60, _⟩ => ⟨S19x19, .f32⟩
  | .hbm, ⟨61, _⟩ => ⟨S19x19, .i1⟩
  | .hbm, ⟨62, _⟩ => ⟨S_, .f32⟩
  | .hbm, ⟨63, _⟩ => ⟨S_, .f32⟩
  | .hbm, ⟨64, _⟩ => ⟨S19x19, .f32⟩
  | .hbm, ⟨65, _⟩ => ⟨S19x19, .f32⟩
  | .hbm, ⟨66, _⟩ => ⟨S19x19, .f32⟩
  | .hbm, ⟨67, _⟩ => ⟨S_, .f32⟩
  | .hbm, ⟨68, _⟩ => ⟨S19x19, .f32⟩
  | .hbm, ⟨69, _⟩ => ⟨S19x19, .f32⟩
  | .hbm, ⟨70, _⟩ => ⟨S_, .f32⟩
  | .hbm, ⟨71, _⟩ => ⟨S19x19, .f32⟩
  | .hbm, ⟨72, _⟩ => ⟨S19x19, .f32⟩
  | .hbm, ⟨73, _⟩ => ⟨S_, .f32⟩
  | .hbm, ⟨74, _⟩ => ⟨S19x19, .f32⟩
  | .hbm, ⟨75, _⟩ => ⟨S19x19, .f32⟩
  | .hbm, ⟨76, _⟩ => ⟨S19x19, .f32⟩
  | .hbm, ⟨77, _⟩ => ⟨S19x19, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S1, .f32⟩
  | .local _ .vmem, ⟨0, _⟩ => ⟨S1x8192, .i32⟩
  | .local _ .vmem, ⟨1, _⟩ => ⟨S1x8192, .i32⟩
  | .local _ .vmem, ⟨2, _⟩ => ⟨S1x8192x128, .f32⟩
  | .local _ .vmem, ⟨3, _⟩ => ⟨S1x8192x128, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S1x8192, .i32⟩
  | .local _ .vmem, ⟨8, _⟩ => ⟨S1x8192, .i32⟩
  | .local _ .vmem, ⟨9, _⟩ => ⟨S1x8192, .f32⟩
  | .local _ .vmem, ⟨10, _⟩ => ⟨S1x8192, .f32⟩
  | .local _ .vmem, ⟨11, _⟩ => ⟨S1x8192x128, .f32⟩
  | .local _ .vmem, ⟨12, _⟩ => ⟨S1x8192x128, .f32⟩
  | .local _ .vmem, ⟨13, _⟩ => ⟨S128x128, .f32⟩
  | .local _ .vmem, ⟨14, _⟩ => ⟨S1x128, .f32⟩
  | .local _ .vmem, ⟨15, _⟩ => ⟨S1x1x128, .f32⟩
  | .local _ .vmem, ⟨16, _⟩ => ⟨S1x1x128, .f32⟩
  | .local _ .vmem, ⟨17, _⟩ => ⟨S1x128, .f32⟩
  | _, _ => ⟨S1x262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_call0_v0 : Ref sig .tc := ⟨.hbm, 63, rfl⟩
abbrev main_call0_v1 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v52 : BitVec 1 := Scalar.cmpi .eq arg1 c15_i32
  let v53 : BitVec 32 := Scalar.extui v52
  let c0_i32_24 : BitVec 32 := 0#32
  let v54 : BitVec 1 := Scalar.cmpi .ne v53 c0_i32_24
  v54

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x8192_S1x8192_0_0 : ∀ a, (![0, 0] : Fin 2 → Nat) a + S1x8192.size a ≤ S1x8192.size a
  h_S1x8192 : 0 < S1x8192.numel
  shapeCasts_S1x8192_S8192 : S1x8192.ShapeCasts S8192
  iota_S1x128_d1_w32 : S1x128.Iotas .tc 32 [1]
  shapeCasts_S8192_S8192x1 : S8192.ShapeCasts S8192x1
  broadcasts_S8192x1_S8192x128 : S8192x1.Broadcasts S8192x128
  broadcasts_S1x128_S8192x128 : S1x128.Broadcasts S8192x128
  natLt_1_32 : 1 < 32
  bitsLt_bf16_f32 : FTy.bits .bf16 < FTy.bits .f32
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  reducesTo_S2x128x128_S128x128_d0 : S2x128x128.ReducesTo [0] S128x128
  h_S_ : 0 < S_.numel
  shapeCasts_S1x262144_S262144 : S1x262144.ShapeCasts S262144
  bcast_S_S262144 : S_.BroadcastsInDim S262144 (![] : Fin 0 → Fin S262144.rank)
  bcast_S_S128 : S_.BroadcastsInDim S128 (![] : Fin 0 → Fin S128.rank)
  bcast_S262144_S262144x1_0 : S262144.BroadcastsInDim S262144x1 (![0] : Fin 1 → Fin S262144x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S128_d1 : S128x128.ReducesTo [1] S128
  reducesTo_S1x262144x3_S1x262144_d2 : S1x262144x3.ReducesTo [2] S1x262144
  bcast_S_S1x262144 : S_.BroadcastsInDim S1x262144 (![] : Fin 0 → Fin S1x262144.rank)
  bcast_S128_S1x128_1 : S128.BroadcastsInDim S1x128 (![1] : Fin 1 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S8192x128_S8192 : S8192x128.Reduces [1] S8192
  shapeCasts_S8192x1_S8192x1 : S8192x1.ShapeCasts S8192x1
  reduces_S8192x128_S128 : S8192x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S2x1x128_S2x128 : S2x1x128.ShapeCasts S2x128
  reducesTo_S2x128_S128_d0 : S2x128.ReducesTo [0] S128
  slices_S128_S19_1 : S128.Slices ![1] S19
  reducesTo_S19_S_d0 : S19.ReducesTo [0] S_
  slices_S128x128_S19x128_1_0 : S128x128.Slices ![1, 0] S19x128
  bcast_S19x128_S19x1x128_0_2 : S19x128.BroadcastsInDim S19x1x128 (![0, 2] : Fin 2 → Fin S19x1x128.rank)
  bcast_S19x128_S1x19x128_1_2 : S19x128.BroadcastsInDim S1x19x128 (![1, 2] : Fin 2 → Fin S1x19x128.rank)
  bcast_S19x1x128_S19x19x128_0_1_2 : S19x1x128.BroadcastsInDim S19x19x128 (![0, 1, 2] : Fin 3 → Fin S19x19x128.rank)
  bcast_S1x19x128_S19x19x128_0_1_2 : S1x19x128.BroadcastsInDim S19x19x128 (![0, 1, 2] : Fin 3 → Fin S19x19x128.rank)
  reducesTo_S19x19x128_S19x19_d2 : S19x19x128.ReducesTo [2] S19x19
  bcast_S_S19x19 : S_.BroadcastsInDim S19x19 (![] : Fin 0 → Fin S19x19.rank)
  reducesTo_S19x19_S_d0_1 : S19x19.ReducesTo [0, 1] S_
  bcast_S_S1 : S_.BroadcastsInDim S1 (![] : Fin 0 → Fin S1.rank)
  dot_S8192x128_S8192x128_S128x128_0_0_1_1_n_n_wf : DotDims.WF S8192x128 S8192x128 S128x128 [0] [0] [1] [1] [] []
  scatter_S128_S262144x1_S262144_n_0_0_1_wf : ScatterDims.WF S128 S262144x1 S262144 [] [0] [0] 1
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x262144.size a
  hwx0_0 : ∀ i : grid0.Coords, EltTy.bits .i32 = 32 ∨ (Rect.block (s := S1x262144) S1x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S1x262144x128.size a
  hwx0_1 : ∀ i : grid0.Coords, EltTy.bits .f32 = 32 ∨ (Rect.block (s := S1x262144x128) S1x8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192.size a ≤ S1x262144.size a
  hwx1_0 : ∀ i : grid1.Coords, EltTy.bits .i32 = 32 ∨ (Rect.block (s := S1x262144) S1x8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x262144.size a
  hwx1_1 : ∀ i : grid1.Coords, EltTy.bits .f32 = 32 ∨ (Rect.block (s := S1x262144) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x128.size a ≤ S1x262144x128.size a
  hwx1_2 : ∀ i : grid1.Coords, EltTy.bits .f32 = 32 ∨ (Rect.block (s := S1x262144x128) S1x8192x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S2x1x128.size a
  hwx1_5 : ∀ i : grid1.Coords, EltTy.bits .f32 = 32 ∨ (Rect.block (s := S2x1x128) S1x1x128.size (cc1_transform_5 i) (hinb1_5 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def scatter_S128_S262144x1_S262144_n_0_0_1 : ScatterDims S128 S262144x1 S262144 where
  updateWindowDims := []
  insertedWindowDims := [0]
  scatterDimsToOperandDims := [0]
  indexVectorDim := 1
  wf := scatter_S128_S262144x1_S262144_n_0_0_1_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_arg1) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x8192x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1x262144x3 : Shape := ⟨3, ![1, 262144, 3]⟩
abbrev S1x262144 : Shape := ⟨2, ![1, 262144]⟩
abbrev S1x262144x128 : Shape := ⟨3, ![1, 262144, 128]⟩
abbrev S262144 : Shape := ⟨1, ![262144]⟩
abbrev S_ : Shape := ⟨0, ![]⟩
abbrev S20 : Shape := ⟨1, ![20]⟩
abbrev S262144x1 : Shape := ⟨2, ![262144, 1]⟩
abbrev S262144x128 : Shape := ⟨2, ![262144, 128]⟩
abbrev S20x128 : Shape := ⟨2, ![20, 128]⟩
abbrev S20x1 : Shape := ⟨2, ![20, 1]⟩
abbrev S1x262144x1 : Shape := ⟨3, ![1, 262144, 1]⟩
abbrev S19 : Shape := ⟨1, ![19]⟩
abbrev S19x128 : Shape := ⟨2, ![19, 128]⟩
abbrev S19x1x128 : Shape := ⟨3, ![19, 1, 128]⟩
abbrev S1x19x128 : Shape := ⟨3, ![1, 19, 128]⟩
abbrev S19x19x128 : Shape := ⟨3, ![19, 19, 128]⟩
abbrev S19x19 : Shape := ⟨2, ![19, 19]⟩
abbrev S1 : Shape := ⟨1, ![1]⟩

abbrev nBuf : Space → Nat
  | .hbm => 107
  | .vmem => 0
  | .smem => 0
  | _ => 0

abbrev bufTy : (tb : Table) → Fin (tcTables nBuf tb) → BufTy
  | .hbm, ⟨0, _⟩ => ⟨S1x262144x3, .f32⟩
  | .hbm, ⟨1, _⟩ => ⟨S1x262144, .i32⟩
  | .hbm, ⟨2, _⟩ => ⟨S1x262144x128, .f32⟩
  | .hbm, ⟨3, _⟩ => ⟨S262144, .i32⟩
  | .hbm, ⟨4, _⟩ => ⟨S1x262144x3, .f32⟩
  | .hbm, ⟨5, _⟩ => ⟨S_, .f32⟩
  | .hbm, ⟨6, _⟩ => ⟨S1x262144, .f32⟩
  | .hbm, ⟨7, _⟩ => ⟨S1x262144, .f32⟩
  | .hbm, ⟨8, _⟩ => ⟨S1x262144, .f32⟩
  | .hbm, ⟨9, _⟩ => ⟨S1x262144, .f32⟩
  | .hbm, ⟨10, _⟩ => ⟨S_, .f32⟩
  | .hbm, ⟨11, _⟩ => ⟨S1x262144, .f32⟩
  | .hbm, ⟨12, _⟩ => ⟨S1x262144, .f32⟩
  | .hbm, ⟨13, _⟩ => ⟨S_, .f32⟩
  | .hbm, ⟨14, _⟩ => ⟨S1x262144, .f32⟩
  | .hbm, ⟨15, _⟩ => ⟨S1x262144, .f32⟩
  | .hbm, ⟨16, _⟩ => ⟨S_, .f32⟩
  | .hbm, ⟨17, _⟩ => ⟨S262144, .f32⟩
  | .hbm, ⟨18, _⟩ => ⟨S_, .f32⟩
  | .hbm, ⟨19, _⟩ => ⟨S20, .f32⟩
  | .hbm, ⟨20, _⟩ => ⟨S262144x1, .i32⟩
  | .hbm, ⟨21, _⟩ => ⟨S20, .f32⟩
  | .hbm, ⟨22, _⟩ => ⟨S_, .f32⟩
  | .hbm, ⟨23, _⟩ => ⟨S20, .f32⟩
  | .hbm, ⟨24, _⟩ => ⟨S20, .f32⟩
  | .hbm, ⟨25, _⟩ => ⟨S262144x128, .f32⟩
  | .hbm, ⟨26, _⟩ => ⟨S_, .f32⟩
  | .hbm, ⟨27, _⟩ => ⟨S20x128, .f32⟩
  | .hbm, ⟨28, _⟩ => ⟨S262144x1, .i32⟩
  | .hbm, ⟨29, _⟩ => ⟨S20x128, .f32⟩
  | .hbm, ⟨30, _⟩ => ⟨S20x1, .f32⟩
  | .hbm, ⟨31, _⟩ => ⟨S20x128, .f32⟩
  | .hbm, ⟨32, _⟩ => ⟨S20x128, .f32⟩
  | .hbm, ⟨33, _⟩ => ⟨S_, .i32⟩
  | .hbm, ⟨34, _⟩ => ⟨S1x262144, .i32⟩
  | .hbm, ⟨35, _⟩ => ⟨S1x262144, .i1⟩
  | .hbm, ⟨36, _⟩ => ⟨S_, .i32⟩
  | .hbm, ⟨37, _⟩ => ⟨S1x262144, .i32⟩
  | .hbm, ⟨38, _⟩ => ⟨S1x262144, .i32⟩
  | .hbm, ⟨39, _⟩ => ⟨S1x262144, .i32⟩
  | .hbm, ⟨40, _⟩ => ⟨S1x262144x1, .i32⟩
  | .hbm, ⟨41, _⟩ => ⟨S1x262144x128, .f32⟩
  | .hbm, ⟨42, _⟩ => ⟨S1x262144x128, .f32⟩
  | .hbm, ⟨43, _⟩ => ⟨S1x262144x128, .f32⟩
  | .hbm, ⟨44, _⟩ => ⟨S_, .f32⟩
  | .hbm, ⟨45, _⟩ => ⟨S1x262144, .f32⟩
  | .hbm, ⟨46, _⟩ => ⟨S1x262144, .f32⟩
  | .hbm, ⟨47, _⟩ => ⟨S_, .f32⟩
  | .hbm, ⟨48, _⟩ => ⟨S1x262144, .f32⟩
  | .hbm, ⟨49, _⟩ => ⟨S1x262144, .f32⟩
  | .hbm, ⟨50, _⟩ => ⟨S_, .f32⟩
  | .hbm, ⟨51, _⟩ => ⟨S1x262144, .f32⟩
  | .hbm, ⟨52, _⟩ => ⟨S1x262144, .f32⟩
  | .hbm, ⟨53, _⟩ => ⟨S1x262144, .f32⟩
  | .hbm, ⟨54, _⟩ => ⟨S1x262144, .f32⟩
  | .hbm, ⟨55, _⟩ => ⟨S262144, .f32⟩
  | .hbm, ⟨56, _⟩ => ⟨S_, .f32⟩
  | .hbm, ⟨57, _⟩ => ⟨S20, .f32⟩
  | .hbm, ⟨58, _⟩ => ⟨S262144x1, .i32⟩
  | .hbm, ⟨59, _⟩ => ⟨S20, .f32⟩
  | .hbm, ⟨60, _⟩ => ⟨S20, .f32⟩
  | .hbm, ⟨61, _⟩ => ⟨S19, .f32⟩
  | .hbm, ⟨62, _⟩ => ⟨S_, .f32⟩
  | .hbm, ⟨63, _⟩ => ⟨S_, .f32⟩
  | .hbm, ⟨64, _⟩ => ⟨S19x128, .f32⟩
  | .hbm, ⟨65, _⟩ => ⟨S19x1x128, .f32⟩
  | .hbm, ⟨66, _⟩ => ⟨S1x19x128, .f32⟩
  | .hbm, ⟨67, _⟩ => ⟨S19x19x128, .f32⟩
  | .hbm, ⟨68, _⟩ => ⟨S19x19x128, .f32⟩
  | .hbm, ⟨69, _⟩ => ⟨S19x19x128, .f32⟩
  | .hbm, ⟨70, _⟩ => ⟨S19x19x128, .f32⟩
  | .hbm, ⟨71, _⟩ => ⟨S_, .f32⟩
  | .hbm, ⟨72, _⟩ => ⟨S19x19, .f32⟩
  | .hbm, ⟨73, _⟩ => ⟨S19x19, .i32⟩
  | .hbm, ⟨74, _⟩ => ⟨S19x19, .i32⟩
  | .hbm, ⟨75, _⟩ => ⟨S_, .i32⟩
  | .hbm, ⟨76, _⟩ => ⟨S19x19, .i32⟩
  | .hbm, ⟨77, _⟩ => ⟨S19x19, .i32⟩
  | .hbm, ⟨78, _⟩ => ⟨S19x19, .i1⟩
  | .hbm, ⟨79, _⟩ => ⟨S19x19, .f32⟩
  | .hbm, ⟨80, _⟩ => ⟨S_, .f32⟩
  | .hbm, ⟨81, _⟩ => ⟨S19x19, .f32⟩
  | .hbm, ⟨82, _⟩ => ⟨S19x19, .i1⟩
  | .hbm, ⟨83, _⟩ => ⟨S_, .f32⟩
  | .hbm, ⟨84, _⟩ => ⟨S_, .f32⟩
  | .hbm, ⟨85, _⟩ => ⟨S19x19, .f32⟩
  | .hbm, ⟨86, _⟩ => ⟨S19x19, .f32⟩
  | .hbm, ⟨87, _⟩ => ⟨S19x19, .f32⟩
  | .hbm, ⟨88, _⟩ => ⟨S_, .f32⟩
  | .hbm, ⟨89, _⟩ => ⟨S19x19, .f32⟩
  | .hbm, ⟨90, _⟩ => ⟨S19x19, .f32⟩
  | .hbm, ⟨91, _⟩ => ⟨S_, .f32⟩
  | .hbm, ⟨92, _⟩ => ⟨S19x19, .f32⟩
  | .hbm, ⟨93, _⟩ => ⟨S19x19, .f32⟩
  | .hbm, ⟨94, _⟩ => ⟨S_, .f32⟩
  | .hbm, ⟨95, _⟩ => ⟨S19x19, .f32⟩
  | .hbm, ⟨96, _⟩ => ⟨S19x19, .f32⟩
  | .hbm, ⟨97, _⟩ => ⟨S19x19, .f32⟩
  | .hbm, ⟨98, _⟩ => ⟨S19x19, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S1, .f32⟩
  | _, _ => ⟨S1x262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_13 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_call0_v0 : Ref sig .tc := ⟨.hbm, 84, rfl⟩
abbrev main_call0_v1 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_19 : Ref sig .tc := ⟨.hbm, 99, rfl⟩
abbrev main_v73 : Ref sig .tc := ⟨.hbm, 100, rfl⟩
abbrev main_cst_20 : Ref sig .tc := ⟨.hbm, 101, rfl⟩
abbrev main_v74 : Ref sig .tc := ⟨.hbm, 102, rfl⟩
abbrev main_cst_21 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  shapeCasts_S1x262144_S262144 : S1x262144.ShapeCasts S262144
  reducesTo_S1x262144x3_S1x262144_d2 : S1x262144x3.ReducesTo [2] S1x262144
  h_S_ : 0 < S_.numel
  bcast_S_S1x262144 : S_.BroadcastsInDim S1x262144 (![] : Fin 0 → Fin S1x262144.rank)
  bcast_S_S262144 : S_.BroadcastsInDim S262144 (![] : Fin 0 → Fin S262144.rank)
  bcast_S_S20 : S_.BroadcastsInDim S20 (![] : Fin 0 → Fin S20.rank)
  bcast_S262144_S262144x1_0 : S262144.BroadcastsInDim S262144x1 (![0] : Fin 1 → Fin S262144x1.rank)
  shapeCasts_S1x262144x128_S262144x128 : S1x262144x128.ShapeCasts S262144x128
  bcast_S_S20x128 : S_.BroadcastsInDim S20x128 (![] : Fin 0 → Fin S20x128.rank)
  bcast_S20_S20x1_0 : S20.BroadcastsInDim S20x1 (![0] : Fin 1 → Fin S20x1.rank)
  bcast_S20x1_S20x128_0_1 : S20x1.BroadcastsInDim S20x128 (![0, 1] : Fin 2 → Fin S20x128.rank)
  bcast_S1x262144_S1x262144x1_0_1 : S1x262144.BroadcastsInDim S1x262144x1 (![0, 1] : Fin 2 → Fin S1x262144x1.rank)
  reducesTo_S1x262144x128_S1x262144_d2 : S1x262144x128.ReducesTo [2] S1x262144
  slices_S20_S19_1 : S20.Slices ![1] S19
  reducesTo_S19_S_d0 : S19.ReducesTo [0] S_
  slices_S20x128_S19x128_1_0 : S20x128.Slices ![1, 0] S19x128
  bcast_S19x128_S19x1x128_0_2 : S19x128.BroadcastsInDim S19x1x128 (![0, 2] : Fin 2 → Fin S19x1x128.rank)
  bcast_S19x128_S1x19x128_1_2 : S19x128.BroadcastsInDim S1x19x128 (![1, 2] : Fin 2 → Fin S1x19x128.rank)
  bcast_S19x1x128_S19x19x128_0_1_2 : S19x1x128.BroadcastsInDim S19x19x128 (![0, 1, 2] : Fin 3 → Fin S19x19x128.rank)
  bcast_S1x19x128_S19x19x128_0_1_2 : S1x19x128.BroadcastsInDim S19x19x128 (![0, 1, 2] : Fin 3 → Fin S19x19x128.rank)
  reducesTo_S19x19x128_S19x19_d2 : S19x19x128.ReducesTo [2] S19x19
  bcast_S_S19x19 : S_.BroadcastsInDim S19x19 (![] : Fin 0 → Fin S19x19.rank)
  reducesTo_S19x19_S_d0_1 : S19x19.ReducesTo [0, 1] S_
  bcast_S_S1 : S_.BroadcastsInDim S1 (![] : Fin 0 → Fin S1.rank)
  scatter_S20_S262144x1_S262144_n_0_0_1_wf : ScatterDims.WF S20 S262144x1 S262144 [] [0] [0] 1
  scatter_S20x128_S262144x1_S262144x128_1_0_0_1_wf : ScatterDims.WF S20x128 S262144x1 S262144x128 [1] [0] [0] 1
  gather_S20x128_S1x262144x1_S1x262144x128_2_0_n_n_0_2_1128_wf : GatherDims.WF S20x128 S1x262144x1 S1x262144x128 [2] [0] [] [0] [] 2 ![1, 128]

variable [Facts₀]

def scatter_S20_S262144x1_S262144_n_0_0_1 : ScatterDims S20 S262144x1 S262144 where
  updateWindowDims := []
  insertedWindowDims := [0]
  scatterDimsToOperandDims := [0]
  indexVectorDim := 1
  wf := scatter_S20_S262144x1_S262144_n_0_0_1_wf
def scatter_S20x128_S262144x1_S262144x128_1_0_0_1 : ScatterDims S20x128 S262144x1 S262144x128 where
  updateWindowDims := [1]
  insertedWindowDims := [0]
  scatterDimsToOperandDims := [0]
  indexVectorDim := 1
  wf := scatter_S20x128_S262144x1_S262144x128_1_0_0_1_wf
def gather_S20x128_S1x262144x1_S1x262144x128_2_0_n_n_0_2_1128 : GatherDims S20x128 S1x262144x1 S1x262144x128 where
  offsetDims := [2]
  collapsedSliceDims := [0]
  operandBatchingDims := []
  startIndicesBatchingDims := []
  startIndexMap := [0]
  indexVectorDim := 2
  sliceSizes := ![1, 128]
  wf := gather_S20x128_S1x262144x1_S1x262144x128_2_0_n_n_0_2_1128_wf

class Facts : Prop extends Facts₀ where

variable [Facts]
-- ==== Proof.Finite.lean ====
import proofs.«416506_j31988916420713_3_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

theorem inf_bits : Ideal.ofBits .f32 0x7F800000#32 = (⊤ : EReal) := by
  simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

variable [Facts]

-- The precondition bounds |x| below +∞ at every entry, so every embedding entry is a real number.
theorem emb_real (a0 : FVec Ideal S1x262144x3 .f32) (a1 : IVec S1x262144 32) (a2 : FVec Ideal S1x262144x128 .f32)
    (h : fn (F := Ideal) a0 a1 a2 = fun _ => 1#1) (i : S1x262144x128.Idx) : ∃ r : ℝ, a2 i = (r : EReal) := by
  have h0 := congrFun h ValueIdx.ix0
  dsimp only [fn] at h0
  obtain ⟨-, h2⟩ := IntOp.andi_eq_one.1 h0
  have h3 := Host.reduce_andi_all _ _ _ _ _ h2 i
  refine real_of_abs_lt_top (a2 i) ?_
  rw [← inf_bits]
  exact h3

end Cert.Finite

end
-- ==== Proof.KI.R0Cases.lean ====
import proofs.«416506_j31988916420713_3_alg».proof.Proof.Gen.KernelIdeal.Launch
import proofs.«416506_j31988916420713_3_alg».proof.Proof.Gen.KernelIdeal.Skeleton
import proofs.«416506_j31988916420713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Regions

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1

theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel

theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel

theorem noFlush0_2 : ∀ t : Fin cfg0.N, ¬cond0_1 (grid0.coords t) → (cfg0.win 2).flush t = false := by decide +kernel

theorem liveAt0_2 : ∀ t : Fin cfg0.N, cond0_1 (grid0.coords t) → cfg0.idle 2 (grid0.coords t) = false := by decide +kernel

abbrev VO0_2 : View sig .tc .vmem S1x128x128 .f32 := (Memref.whole cc0_stg2_0 : Memref sig .tc .vmem S1x128x128 .f32).view

abbrev ms0_0 (t : Fin cfg0.N) : Memref sig .tc .vmem S1x8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)

abbrev scM0_0 : Memref sig .tc .vmem S128x128 .f32 := Memref.whole cc0_scratch0

abbrev VS0_0 : View sig .tc .vmem S128x128 .f32 := scM0_0.view

abbrev Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA; rw [scopedRest0_eq]; simp only [scM0_0, owns_whole]; try rfl

end Cert.KernelIdeal.Hand

end
-- ==== Proof.KI.R0RunA.lean ====
import proofs.«416506_j31988916420713_3_alg».proof.Proof.KI.R0Cases

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_A (c : Dev nD) (i : grid0.Coords) (arg2 : Memref sig .tc .vmem S1x8192 .i32) (harg2 : arg2.IsWhole) (arg3 : Memref sig .tc .vmem S1x8192x128 .f32) (harg3 : arg3.IsWhole) (arg4 : Memref sig .tc .vmem S1x128x128 .f32) (harg4 : arg4.IsWhole) (arg5 : Memref sig .tc .vmem S128x128 .f32) (harg5 : arg5.IsWhole) (hc0 : cond0_0 i) (hc1 : ¬cond0_1 i)
    (x0 : Vec F S1x8192 .i32) (x1 : Vec F S1x8192x128 .f32) :
    Σ' (L2 : List (View.Piece (Elt F) S1x128x128 .f32)), { LS0 : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨[], ?_, fun xi2 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R0RunB.lean ====
import proofs.«416506_j31988916420713_3_alg».proof.Proof.KI.R0Cases

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_B (c : Dev nD) (i : grid0.Coords) (arg2 : Memref sig .tc .vmem S1x8192 .i32) (harg2 : arg2.IsWhole) (arg3 : Memref sig .tc .vmem S1x8192x128 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : ¬cond0_1 i)
    (x0 : Vec F S1x8192 .i32) (x1 : Vec F S1x8192x128 .f32) (xs0 : Vec F S128x128 .f32) :
    Σ' (L2 : List (View.Piece (Elt F) S1x128x128 .f32)), { LS0 : List (View.Piece (Elt F) S128x128 .f32) //
      ∀ (xi2 : Vec F S1x128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨[], ?_, fun xi2 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R0RunC.lean ====
import proofs.«416506_j31988916420713_3_alg».proof.Proof.KI.R0Cases

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_C (c : Dev nD) (i : grid0.Coords) (arg2 : Memref sig .tc .vmem S1x8192 .i32) (harg2 : arg2.IsWhole) (arg3 : Memref sig .tc .vmem S1x8192x128 .f32) (harg3 : arg3.IsWhole) (arg4 : Memref sig .tc .vmem S1x128x128 .f32) (harg4 : arg4.IsWhole) (arg5 : Memref sig .tc .vmem S128x128 .f32) (harg5 : arg5.IsWhole) (hc0 : ¬cond0_0 i) (hc1 : cond0_1 i)
    (x0 : Vec F S1x8192 .i32) (x1 : Vec F S1x8192x128 .f32) (xs0 : Vec F S128x128 .f32) :
    Σ' (L2 : List (View.Piece (Elt F) S1x128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sum_kernel i arg2 harg2 arg3 harg3 arg4 harg4 arg5 harg5) K } := by
  refine ⟨?_, ?_, fun E K => ?run⟩
  case run =>
    simp only [cc0__sum_kernel_eq_skeleton]; unfold cc0__sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R0Outs.lean ====
import proofs.«416506_j31988916420713_3_alg».proof.Proof.KI.R0RunA
import proofs.«416506_j31988916420713_3_alg».proof.Proof.KI.R0RunB
import proofs.«416506_j31988916420713_3_alg».proof.Proof.KI.R0RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S1x8192 .i32) (harg2 : arg2.IsWhole) (arg3 : Memref sig .tc .vmem S1x8192x128 .f32) (harg3 : arg3.IsWhole) (arg4 : Memref sig .tc .vmem S1x128x128 .f32) (harg4 : arg4.IsWhole) (arg5 : Memref sig .tc .vmem S128x128 .f32) (harg5 : arg5.IsWhole)

section
variable (hc0 : cond0_0 i) (hc1 : ¬cond0_1 i) (x0 : Vec F S1x8192 .i32) (x1 : Vec F S1x8192x128 .f32)

theorem scover0_A_0 (y : S128x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x128.size (by sl_kernel_rfl) y

end

section
variable (hc0 : ¬cond0_0 i) (hc1 : ¬cond0_1 i) (x0 : Vec F S1x8192 .i32) (x1 : Vec F S1x8192x128 .f32) (xs0 : Vec F S128x128 .f32)

theorem scover0_B_0 (y : S128x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x128.size (by sl_kernel_rfl) y

end

section
variable (hc0 : ¬cond0_0 i) (hc1 : cond0_1 i) (x0 : Vec F S1x8192 .i32) (x1 : Vec F S1x8192x128 .f32) (xs0 : Vec F S128x128 .f32)

theorem cover0_C_2 (y : S1x128x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x128.size (by sl_kernel_rfl) y

theorem scover0_C_0 (y : S128x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x128.size (by sl_kernel_rfl) y

end

end

def rd0 {P : List (View.Piece (Elt F) S1x128x128 .f32) → List (View.Piece (Elt F) S128x128 .f32) → Prop}
    (run : Σ' L2, { LS0 // P L2 LS0 }) : Vec F S1x128x128 .f32 × Vec F S128x128 .f32 :=
  (VO0_2.read (Elt F) (VO0_2.writes (Elt F) VO0_2.junk run.1), VS0_0.read (Elt F) (VS0_0.writes (Elt F) VS0_0.junk run.2.1))

section Regions

variable (V : (c : Dev nD) → (b : Ref sig .tc) → Buf (Elt F) ((c : Thread nD τ).loc b))

section
variable (c : Dev nD) (t : Fin cfg0.N)

def ptA0 (h0 : t.val % 16 = 0) (h1 : ¬t.val % 16 = 15) :=
  kernelRun0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)

def ptB0 (h0 : ¬t.val % 16 = 0) (h1 : ¬t.val % 16 = 15) (xs0 : Vec F S128x128 .f32) :=
  kernelRun0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) xs0

def ptC0 (h0 : ¬t.val % 16 = 0) (h1 : t.val % 16 = 15) (xs0 : Vec F S128x128 .f32) :=
  kernelRun0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) xs0

end

def outsAt0 (c : Dev nD) : (n : ℕ) → n < cfg0.N → Vec F S1x128x128 .f32 × Vec F S128x128 .f32
  | 0, hn => rd0 (ptA0 V c ⟨0, hn⟩ (Nat.zero_mod _) (fun h => by (try dsimp only at h); omega))
  | n + 1, hn =>
    if h0 : (n + 1) % 16 = 0 then rd0 (ptA0 V c ⟨n + 1, hn⟩ h0 (show ¬(n + 1) % 16 = 15 by omega))
    else if h1 : (n + 1) % 16 = 15 then rd0 (ptC0 V c ⟨n + 1, hn⟩ h0 h1 (outsAt0 c n (Nat.lt_of_succ_lt hn)).2)
    else rd0 (ptB0 V c ⟨n + 1, hn⟩ h0 h1 (outsAt0 c n (Nat.lt_of_succ_lt hn)).2)

theorem outsAt0_A (c : Dev nD) (t : Fin cfg0.N) (h0 : t.val % 16 = 0) (h1 : ¬t.val % 16 = 15) :
    outsAt0 V c t.val t.isLt = rd0 (ptA0 V c t h0 h1) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt
      = rd0 (ptB0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt
      = rd0 (ptC0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

end Regions

end Cert.KernelIdeal.Hand

end
-- ==== Proof.KI.R0Data.lean ====
import proofs.«416506_j31988916420713_3_alg».proof.Proof.KI.R0Outs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := rfl

theorem owed_eq0 (c : Dev nD) (t : Fin (cfg0.N + 1)) : (dat0 V c).owed t = 0 := rfl

theorem recorded_eq0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem Phi_any0 (c : Dev nD) (t : Fin (cfg0.N + 1)) : (dat0 V c).Φ t ⊢ Pipeline.ΦA spec0 c := by
  by_cases ht : t.val = 0
  · rw [show (dat0 V c).Φ t = PhiS0 V c t.val (Nat.le_of_lt_succ t.isLt) from rfl, PhiS0_zero V c _ _ ht]
    try exact Idealize.SL.BI.Entails.refl _
  · exact Phi_out0 V c t ht

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in

-- By control case, the body takes the accumulator from what the point before left to what this point leaves.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  by_cases h1 : t.val % 16 = 15
  · have h0 : ¬t.val % 16 = 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    dsimp only [rd0]
    have hz : t.val ≠ 0 := by omega
    rw [PhiS0_castSucc V c t, PhiS0_pos V c _ _ hz]
    iintro ⟨⟨⟨HS0, HR⟩, Hg⟩, Ho, ⟨%d0, H0⟩, ⟨%d1, H1⟩, ⟨%d2, H2⟩⟩
    iapply ((ptC0 V c t h0 h1 _).2.2 Set.univ _)
    iframe H0 H1 HS0
    isplitl [H2]; · iexists _; iexact H2
    iintro ⟨H0, H1, ⟨%e2, H2⟩, ⟨%es0, HS0⟩⟩
    iframe HR Hg Ho H0 H1
    isplitl [HS0]
    · unfold owns; iexists _; isplitr
      swap; · iexact HS0
      ipureintro; exact View.read_writes_of_cover _ _ _ _ _ (scover0_C_0 c _ _ _ _ _ _ _ _ _ _ _ _ _ _)
    unfold owns; iexists _; isplitr
    swap; · iexact H2
    ipureintro; exact View.read_writes_of_cover _ _ _ _ _ (cover0_C_2 c _ _ _ _ _ _ _ _ _ _ _ _ _ _)
  · rw [Dat.leavesExact_idle (dat0 V c) 2 t (idleAt0_2 t fun h => h1 ((hcond0_1 t).mp h)) (noFlush0_2 t fun h => h1 ((hcond0_1 t).mp h))]
    by_cases h0 : t.val % 16 = 0
    · rw [outsAt0_A V c t h0 h1]
      dsimp only [rd0]
      refine BIBase.Entails.trans (sep_mono (Phi_any0 V c t.castSucc) .rfl) ?_
      rw [PhiA0_eq]
      iintro ⟨⟨⟨HS0, HR⟩, Hg⟩, Ho, ⟨%d0, H0⟩, ⟨%d1, H1⟩, ⟨%d2, H2⟩⟩
      iapply ((ptA0 V c t h0 h1).2.2 _ Set.univ _)
      iframe H0 H1 H2 HS0
      iintro ⟨H0, H1, H2, ⟨%es0, HS0⟩⟩
      iframe HR Hg Ho H0 H1
      isplitl [HS0]
      · unfold owns; iexists _; isplitr
        swap; · iexact HS0
        ipureintro; exact View.read_writes_of_cover _ _ _ _ _ (scover0_A_0 c _ _ _ _ _ _ _ _ _ _ _ _ _)
      iexists _; iexact H2
    · rw [outsAt0_B V c t h0 h1]
      dsimp only [rd0]
      have hz : t.val ≠ 0 := by omega
      rw [PhiS0_castSucc V c t, PhiS0_pos V c _ _ hz]
      iintro ⟨⟨⟨HS0, HR⟩, Hg⟩, Ho, ⟨%d0, H0⟩, ⟨%d1, H1⟩, ⟨%d2, H2⟩⟩
      iapply ((ptB0 V c t h0 h1 _).2.2 _ Set.univ _)
      iframe H0 H1 H2 HS0
      iintro ⟨H0, H1, H2, ⟨%es0, HS0⟩⟩
      iframe HR Hg Ho H0 H1
      isplitl [HS0]
      · unfold owns; iexists _; isplitr
        swap; · iexact HS0
        ipureintro; exact View.read_writes_of_cover _ _ _ _ _ (scover0_B_0 c _ _ _ _ _ _ _ _ _ _ _ _ _ _)
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  Phi_out0 V c _ (by rw [Fin.val_last]; have : cfg0.N = 32 := N_0; omega)

end Regions

end Cert.KernelIdeal.Hand

end
-- ==== Proof.KI.R1Cases.lean ====
import proofs.«416506_j31988916420713_3_alg».proof.Proof.Gen.KernelIdeal.Launch
import proofs.«416506_j31988916420713_3_alg».proof.Proof.Gen.KernelIdeal.Skeleton
import proofs.«416506_j31988916420713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)

abbrev cond1_1 (i : grid1.Coords) : Prop := k1_cond2 i = 1#1

theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem idleAt1_5 : ∀ t : Fin cfg1.N, ¬cond1_1 (grid1.coords t) → cfg1.idle 5 (grid1.coords t) = true := by decide +kernel

theorem noFlush1_5 : ∀ t : Fin cfg1.N, ¬cond1_1 (grid1.coords t) → (cfg1.win 5).flush t = false := by decide +kernel

theorem liveAt1_5 : ∀ t : Fin cfg1.N, cond1_1 (grid1.coords t) → cfg1.idle 5 (grid1.coords t) = false := by decide +kernel

abbrev VO1_5 : View sig .tc .vmem S1x1x128 .f32 := (Memref.whole cc1_stg5_0 : Memref sig .tc .vmem S1x1x128 .f32).view

abbrev ms1_0 (t : Fin cfg1.N) : Memref sig .tc .vmem S1x8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8192x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x128 .f32 := win1_5.stage (cfg1.slots t 5)
abbrev hs1_5 (t : Fin cfg1.N) : (ms1_5 t).IsWhole := hstage1_5 ((cfg1.slots t 5).cast nbuf1_5)

abbrev scM1_0 : Memref sig .tc .vmem S1x128 .f32 := Memref.whole cc1_scratch0

abbrev VS1_0 : View sig .tc .vmem S1x128 .f32 := scM1_0.view

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

section Entry
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Entry

end Cert.KernelIdeal.Hand

end
-- ==== Proof.KI.R1RunA.lean ====
import proofs.«416506_j31988916420713_3_alg».proof.Proof.KI.R1Cases

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_A (c : Dev nD) (i : grid1.Coords) (arg2 : Memref sig .tc .vmem S1x8192 .i32) (harg2 : arg2.IsWhole) (arg3 : Memref sig .tc .vmem S1x8192 .f32) (harg3 : arg3.IsWhole) (arg4 : Memref sig .tc .vmem S1x8192x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1x128 .f32) (harg7 : arg7.IsWhole) (arg8 : Memref sig .tc .vmem S1x128 .f32) (harg8 : arg8.IsWhole) (hc0 : cond1_0 i) (hc1 : ¬cond1_1 i)
    (x0 : Vec F S1x8192 .i32) (x1 : Vec F S1x8192 .f32) (x2 : Vec F S1x8192x128 .f32) (x3 : Vec F S128x128 .f32) (x4 : Vec F S1x128 .f32) :
    Σ' (L5 : List (View.Piece (Elt F) S1x1x128 .f32)), { LS0 : List (View.Piece (Elt F) S1x128 .f32) //
      ∀ (xi5 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__intra_kernel i arg2 harg2 arg3 harg3 arg4 harg4 arg5 harg5 arg6 harg6 arg7 harg7 arg8 harg8) K } := by
  refine ⟨[], ?_, fun xi5 E K => ?run⟩
  case run =>
    simp only [cc1__intra_kernel_eq_skeleton]; unfold cc1__intra_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R1RunB.lean ====
import proofs.«416506_j31988916420713_3_alg».proof.Proof.KI.R1Cases

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords) (arg2 : Memref sig .tc .vmem S1x8192 .i32) (harg2 : arg2.IsWhole) (arg3 : Memref sig .tc .vmem S1x8192 .f32) (harg3 : arg3.IsWhole) (arg4 : Memref sig .tc .vmem S1x8192x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1x128 .f32) (harg7 : arg7.IsWhole) (arg8 : Memref sig .tc .vmem S1x128 .f32) (harg8 : arg8.IsWhole) (hc0 : ¬cond1_0 i) (hc1 : ¬cond1_1 i)
    (x0 : Vec F S1x8192 .i32) (x1 : Vec F S1x8192 .f32) (x2 : Vec F S1x8192x128 .f32) (x3 : Vec F S128x128 .f32) (x4 : Vec F S1x128 .f32) (xs0 : Vec F S1x128 .f32) :
    Σ' (L5 : List (View.Piece (Elt F) S1x1x128 .f32)), { LS0 : List (View.Piece (Elt F) S1x128 .f32) //
      ∀ (xi5 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__intra_kernel i arg2 harg2 arg3 harg3 arg4 harg4 arg5 harg5 arg6 harg6 arg7 harg7 arg8 harg8) K } := by
  refine ⟨[], ?_, fun xi5 E K => ?run⟩
  case run =>
    simp only [cc1__intra_kernel_eq_skeleton]; unfold cc1__intra_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R1RunC.lean ====
import proofs.«416506_j31988916420713_3_alg».proof.Proof.KI.R1Cases

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_C (c : Dev nD) (i : grid1.Coords) (arg2 : Memref sig .tc .vmem S1x8192 .i32) (harg2 : arg2.IsWhole) (arg3 : Memref sig .tc .vmem S1x8192 .f32) (harg3 : arg3.IsWhole) (arg4 : Memref sig .tc .vmem S1x8192x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1x128 .f32) (harg7 : arg7.IsWhole) (arg8 : Memref sig .tc .vmem S1x128 .f32) (harg8 : arg8.IsWhole) (hc0 : ¬cond1_0 i) (hc1 : cond1_1 i)
    (x0 : Vec F S1x8192 .i32) (x1 : Vec F S1x8192 .f32) (x2 : Vec F S1x8192x128 .f32) (x3 : Vec F S128x128 .f32) (x4 : Vec F S1x128 .f32) (xs0 : Vec F S1x128 .f32) :
    Σ' (L5 : List (View.Piece (Elt F) S1x1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__intra_kernel i arg2 harg2 arg3 harg3 arg4 harg4 arg5 harg5 arg6 harg6 arg7 harg7 arg8 harg8) K } := by
  refine ⟨?_, ?_, fun E K => ?run⟩
  case run =>
    simp only [cc1__intra_kernel_eq_skeleton]; unfold cc1__intra_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R1Outs.lean ====
import proofs.«416506_j31988916420713_3_alg».proof.Proof.KI.R1RunA
import proofs.«416506_j31988916420713_3_alg».proof.Proof.KI.R1RunB
import proofs.«416506_j31988916420713_3_alg».proof.Proof.KI.R1RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords) (arg2 : Memref sig .tc .vmem S1x8192 .i32) (harg2 : arg2.IsWhole) (arg3 : Memref sig .tc .vmem S1x8192 .f32) (harg3 : arg3.IsWhole) (arg4 : Memref sig .tc .vmem S1x8192x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1x128 .f32) (harg7 : arg7.IsWhole) (arg8 : Memref sig .tc .vmem S1x128 .f32) (harg8 : arg8.IsWhole)

section
variable (hc0 : cond1_0 i) (hc1 : ¬cond1_1 i) (x0 : Vec F S1x8192 .i32) (x1 : Vec F S1x8192 .f32) (x2 : Vec F S1x8192x128 .f32) (x3 : Vec F S128x128 .f32) (x4 : Vec F S1x128 .f32)

theorem scover1_A_0 (y : S1x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1x128.size (by sl_kernel_rfl) y

end

section
variable (hc0 : ¬cond1_0 i) (hc1 : ¬cond1_1 i) (x0 : Vec F S1x8192 .i32) (x1 : Vec F S1x8192 .f32) (x2 : Vec F S1x8192x128 .f32) (x3 : Vec F S128x128 .f32) (x4 : Vec F S1x128 .f32) (xs0 : Vec F S1x128 .f32)

theorem scover1_B_0 (y : S1x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1x128.size (by sl_kernel_rfl) y

end

section
variable (hc0 : ¬cond1_0 i) (hc1 : cond1_1 i) (x0 : Vec F S1x8192 .i32) (x1 : Vec F S1x8192 .f32) (x2 : Vec F S1x8192x128 .f32) (x3 : Vec F S128x128 .f32) (x4 : Vec F S1x128 .f32) (xs0 : Vec F S1x128 .f32)

theorem cover1_C_5 (y : S1x1x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x1x128.size (by sl_kernel_rfl) y

theorem scover1_C_0 (y : S1x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1x128.size (by sl_kernel_rfl) y

end

end

def rd1 {P : List (View.Piece (Elt F) S1x1x128 .f32) → List (View.Piece (Elt F) S1x128 .f32) → Prop}
    (run : Σ' L2, { LS0 // P L2 LS0 }) : Vec F S1x1x128 .f32 × Vec F S1x128 .f32 :=
  (VO1_5.read (Elt F) (VO1_5.writes (Elt F) VO1_5.junk run.1), VS1_0.read (Elt F) (VS1_0.writes (Elt F) VS1_0.junk run.2.1))

section Regions

variable (V : (c : Dev nD) → (b : Ref sig .tc) → Buf (Elt F) ((c : Thread nD τ).loc b))

section
variable (c : Dev nD) (t : Fin cfg1.N)

def ptA1 (h0 : t.val % 16 = 0) (h1 : ¬t.val % 16 = 15) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

def ptB1 (h0 : ¬t.val % 16 = 0) (h1 : ¬t.val % 16 = 15) (xs0 : Vec F S1x128 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0

def ptC1 (h0 : ¬t.val % 16 = 0) (h1 : t.val % 16 = 15) (xs0 : Vec F S1x128 .f32) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0

end

def outsAt1 (c : Dev nD) : (n : ℕ) → n < cfg1.N → Vec F S1x1x128 .f32 × Vec F S1x128 .f32
  | 0, hn => rd1 (ptA1 V c ⟨0, hn⟩ (Nat.zero_mod _) (fun h => by (try dsimp only at h); omega))
  | n + 1, hn =>
    if h0 : (n + 1) % 16 = 0 then rd1 (ptA1 V c ⟨n + 1, hn⟩ h0 (show ¬(n + 1) % 16 = 15 by omega))
    else if h1 : (n + 1) % 16 = 15 then rd1 (ptC1 V c ⟨n + 1, hn⟩ h0 h1 (outsAt1 c n (Nat.lt_of_succ_lt hn)).2)
    else rd1 (ptB1 V c ⟨n + 1, hn⟩ h0 h1 (outsAt1 c n (Nat.lt_of_succ_lt hn)).2)

theorem outsAt1_A (c : Dev nD) (t : Fin cfg1.N) (h0 : t.val % 16 = 0) (h1 : ¬t.val % 16 = 15) :
    outsAt1 V c t.val t.isLt = rd1 (ptA1 V c t h0 h1) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt
      = rd1 (ptB1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt
      = rd1 (ptC1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

end Regions

end Cert.KernelIdeal.Hand

end
-- ==== Proof.KI.R1Data.lean ====
import proofs.«416506_j31988916420713_3_alg».proof.Proof.KI.R1Outs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem recorded_eq1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_out (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HS0⟩, Hg⟩
  isplitl [HR0 HR1 HR2 HR3 HR4 HR5 HR6 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

theorem Phi_any1 (c : Dev nD) (t : Fin (cfg1.N + 1)) : (dat1 V c).Φ t ⊢ Pipeline.ΦA spec1 c := by
  by_cases ht : t.val = 0
  · rw [show (dat1 V c).Φ t = PhiS1 V c t.val (Nat.le_of_lt_succ t.isLt) from rfl, PhiS1_zero V c _ _ ht]
    try exact Idealize.SL.BI.Entails.refl _
  · exact Phi_out1 V c t ht

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in

-- By control case, the body takes the accumulator from what the point before left to what this point leaves.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 32 := lt_of_lt_of_eq t.isLt (show cfg1.N = 32 from N_1)
  by_cases h1 : t.val % 16 = 15
  · have h0 : ¬t.val % 16 = 0 := by omega
    rw [show (dat1 V c).leavesExact 5 t = owns (c : Thread nD τ) (ms1_5 t) fullShare ((dat1 V c).after 5 t) from by
      unfold Dat.leavesExact; rw [liveAt1_5 t ((hcond1_1 t).mpr h1)], after1_out]
    rw [outsAt1_C V c t h0 h1]
    dsimp only [rd1]
    have hz : t.val ≠ 0 := by omega
    rw [PhiS1_castSucc V c t, PhiS1_pos V c _ _ hz]
    iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩⟩
    iapply ((ptC1 V c t h0 h1 _).2.2 Set.univ _)
    iframe H0 H1 H2 H3 H4 HS0
    isplitl [H5]; · iexists _; iexact H5
    iintro ⟨H0, H1, H2, H3, H4, ⟨%e5, H5⟩, ⟨%es0, HS0⟩⟩
    iframe HR0 HR1 HR2 HR3 HR4 HR5 HR6 Hg Ho H0 H1 H2 H3 H4
    isplitl [HS0]
    · unfold owns; iexists _; isplitr
      swap; · iexact HS0
      ipureintro; exact View.read_writes_of_cover _ _ _ _ _ (scover1_C_0 c _ _ _ _ _ _ _ _ _ _ _ _ _ _ _ _ _ _ _ _ _ _ _)
    unfold owns; iexists _; isplitr
    swap; · iexact H5
    ipureintro; exact View.read_writes_of_cover _ _ _ _ _ (cover1_C_5 c _ _ _ _ _ _ _ _ _ _ _ _ _ _ _ _ _ _ _ _ _ _ _)
  · rw [Dat.leavesExact_idle (dat1 V c) 5 t (idleAt1_5 t fun h => h1 ((hcond1_1 t).mp h)) (noFlush1_5 t fun h => h1 ((hcond1_1 t).mp h))]
    by_cases h0 : t.val % 16 = 0
    · rw [outsAt1_A V c t h0 h1]
      dsimp only [rd1]
      refine BIBase.Entails.trans (sep_mono (Phi_any1 V c t.castSucc) .rfl) ?_
      rw [PhiA1_eq]
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩⟩
      iapply ((ptA1 V c t h0 h1).2.2 _ Set.univ _)
      iframe H0 H1 H2 H3 H4 H5 HS0
      iintro ⟨H0, H1, H2, H3, H4, H5, ⟨%es0, HS0⟩⟩
      iframe HR0 HR1 HR2 HR3 HR4 HR5 HR6 Hg Ho H0 H1 H2 H3 H4
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _)
      iexists _; iexact H5
    · rw [outsAt1_B V c t h0 h1]
      dsimp only [rd1]
      have hz : t.val ≠ 0 := by omega
      rw [PhiS1_castSucc V c t, PhiS1_pos V c _ _ hz]
      iintro ⟨⟨⟨HR0, HR1, HR2, HR3, HR4, HR5, HR6, HS0⟩, Hg⟩, Ho, ⟨%d0, H0⟩, ⟨%d1, H1⟩, ⟨%d2, H2⟩, ⟨%d3, H3⟩, ⟨%d4, H4⟩, ⟨%d5, H5⟩⟩
      iapply ((ptB1 V c t h0 h1 _).2.2 _ Set.univ _)
      iframe H0 H1 H2 H3 H4 H5 HS0
      iintro ⟨H0, H1, H2, H3, H4, H5, ⟨%es0, HS0⟩⟩
      iframe HR0 HR1 HR2 HR3 HR4 HR5 HR6 Hg Ho H0 H1 H2 H3 H4
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  Phi_out1 V c _ (by rw [Fin.val_last]; have : cfg1.N = 32 := N_1; omega)

end Entry

end Cert.KernelIdeal.Hand

end
-- ==== Proof.KI.Launch.lean ====
import proofs.«416506_j31988916420713_3_alg».proof.Proof.KI.R0Data
import proofs.«416506_j31988916420713_3_alg».proof.Proof.KI.R1Data
import proofs.«416506_j31988916420713_3_alg».proof.Proof.Gen.KernelIdeal.Regions
import Idealize.ShloMosaic.Lib.Pipeline.Frame
import Idealize.ShloMosaic.Lib.Pipeline.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 (c : Dev nD) (b : Ref sig .tc) : Buf (Elt F) ((c : Thread nD τ).loc b) := m ((c : Thread nD τ).loc b)

def out0 (c : Dev nD) : Buf (Elt F) ((c : Thread nD τ).loc main_v0) := (dat0 (E0 m) c).arrAt 2 cfg0.N

def X1 (c : Dev nD) : Valuation τ sig (Elt F) := Function.update (fun b => m (c, b)) main_v0 (out0 m c)

def X2 (c : Dev nD) : Valuation τ sig (Elt F) := StableHlo.after hostOps1 (X1 m c)

abbrev E1 (c : Dev nD) (b : Ref sig .tc) : Buf (Elt F) ((c : Thread nD τ).loc b) := X2 m c (Proc.devRef .tc b)

def out1 (c : Dev nD) : Buf (Elt F) ((c : Thread nD τ).loc main_v24) := (dat1 (E1 m) c).arrAt 5 cfg1.N

def X3 (c : Dev nD) : Valuation τ sig (Elt F) := Function.update (X2 m c) main_v24 (out1 m c)

def X6 (c : Dev nD) : Valuation τ sig (Elt F) :=
  StableHlo.after hostOps2_2 (StableHlo.after hostOps2_1 (StableHlo.after hostOps2 (X3 m c)))

theorem X1_v0 (c : Dev nD) : X1 m c (Proc.devRef .tc main_v0) = out0 m c := by
  unfold X1; exact Function.update_self _ _ _

theorem X1_of (c : Dev nD) (r : Ref sig .tc) (h : r ≠ main_v0) :
    X1 m c (Proc.devRef .tc r) = m ((c : Thread nD τ).loc r) := by
  unfold X1
  exact Function.update_of_ne (StableHlo.devRef_ne_of_ne h : (Proc.devRef .tc r : DevRef τ sig) ≠ Proc.devRef .tc main_v0) _ _

theorem X3_v24 (c : Dev nD) : X3 m c (Proc.devRef .tc main_v24) = out1 m c := by
  unfold X3; exact Function.update_self _ _ _

theorem X3_of (c : Dev nD) (r : Ref sig .tc) (h : r ≠ main_v24) :
    X3 m c (Proc.devRef .tc r) = X2 m c (Proc.devRef .tc r) := by
  unfold X3
  exact Function.update_of_ne (StableHlo.devRef_ne_of_ne h : (Proc.devRef .tc r : DevRef τ sig) ≠ Proc.devRef .tc main_v24) _ _

theorem X2_of (c : Dev nD) (r : Ref sig .tc) (h : r ∉ hostOps1_W) :
    X2 m c (Proc.devRef .tc r) = X1 m c (Proc.devRef .tc r) :=
  StableHlo.after_of_writes_sub hostOps1 _ hostOps1_writes h

theorem X6_of (c : Dev nD) (r : Ref sig .tc) (h2 : r ∉ hostOps2_W) (h21 : r ∉ hostOps2_1_W) (h22 : r ∉ hostOps2_2_W) :
    X6 m c (Proc.devRef .tc r) = X3 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2

theorem X6_main_arg0 (c : Dev nD) : X6 m c (Proc.devRef .tc main_arg0) = m ((c : Thread nD τ).loc main_arg0) :=
  (X6_of m c main_arg0 (by decide) (by decide) (by decide)).trans <| (X3_of m c main_arg0 (by decide)).trans <|
    (X2_of m c main_arg0 (by decide)).trans <| X1_of m c main_arg0 (by decide)
theorem X6_main_arg1 (c : Dev nD) : X6 m c (Proc.devRef .tc main_arg1) = m ((c : Thread nD τ).loc main_arg1) :=
  (X6_of m c main_arg1 (by decide) (by decide) (by decide)).trans <| (X3_of m c main_arg1 (by decide)).trans <|
    (X2_of m c main_arg1 (by decide)).trans <| X1_of m c main_arg1 (by decide)
theorem X6_main_arg2 (c : Dev nD) : X6 m c (Proc.devRef .tc main_arg2) = m ((c : Thread nD τ).loc main_arg2) :=
  (X6_of m c main_arg2 (by decide) (by decide) (by decide)).trans <| (X3_of m c main_arg2 (by decide)).trans <|
    (X2_of m c main_arg2 (by decide)).trans <| X1_of m c main_arg2 (by decide)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

namespace Launch

theorem hF0 (c : Dev nD) : ∀ w : Fin cfg0.W, (dat0 (E0 m) c).arrAt w cfg0.N = X1 m c (Proc.devRef .tc (Pipeline.arrRef spec0 w))
  | ⟨0, _⟩ => (((dat0 (E0 m) c).arrAt_in 0 rfl _).trans (A_eq0 (E0 m) c 0)).trans (X1_of m c main_arg1 (by decide)).symm
  | ⟨1, _⟩ => (((dat0 (E0 m) c).arrAt_in 1 rfl _).trans (A_eq0 (E0 m) c 1)).trans (X1_of m c main_arg2 (by decide)).symm
  | ⟨2, _⟩ => (X1_v0 m c).symm

theorem hrest0 (c : Dev nD) (b : Ref sig .tc) (hb : b ∉ Finset.univ.image (Pipeline.arrRef spec0)) :
    X1 m c (Proc.devRef .tc b) = E0 m c b :=
  X1_of m c b fun e => hb (Finset.mem_image.mpr ⟨2, Finset.mem_univ _, e.symm⟩)

theorem hF1 (c : Dev nD) : ∀ w : Fin cfg1.W, (dat1 (E1 m) c).arrAt w cfg1.N = X3 m c (Proc.devRef .tc (Pipeline.arrRef spec1 w))
  | ⟨0, _⟩ => (((dat1 (E1 m) c).arrAt_in 0 rfl _).trans (A_eq1 (E1 m) c 0)).trans (X3_of m c main_arg1 (by decide)).symm
  | ⟨1, _⟩ => (((dat1 (E1 m) c).arrAt_in 1 rfl _).trans (A_eq1 (E1 m) c 1)).trans (X3_of m c main_v22 (by decide)).symm
  | ⟨2, _⟩ => (((dat1 (E1 m) c).arrAt_in 2 rfl _).trans (A_eq1 (E1 m) c 2)).trans (X3_of m c main_arg2 (by decide)).symm
  | ⟨3, _⟩ => (((dat1 (E1 m) c).arrAt_in 3 rfl _).trans (A_eq1 (E1 m) c 3)).trans (X3_of m c main_v11 (by decide)).symm
  | ⟨4, _⟩ => (((dat1 (E1 m) c).arrAt_in 4 rfl _).trans (A_eq1 (E1 m) c 4)).trans (X3_of m c main_v23 (by decide)).symm
  | ⟨5, _⟩ => (X3_v24 m c).symm

theorem hrest1 (c : Dev nD) (b : Ref sig .tc) (hb : b ∉ Finset.univ.image (Pipeline.arrRef spec1)) :
    X3 m c (Proc.devRef .tc b) = E1 m c b :=
  X3_of m c b fun e => hb (Finset.mem_image.mpr ⟨5, Finset.mem_univ _, e.symm⟩)

def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (X6 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed_eq0 (E0 m) c t
  pre c := iprop(StableHlo.held (c : Thread nD τ) (Pipeline.ucRefs τ sig) (V0 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (E0 m) c w) (E0 m c) fun w => A_eq0 (E0 m) c w
    rw [show (unscopedBufs (Ix := Unit) (Name := ℕ) (U := UR sig nD τ) (Lvl := ℕ) c (E0 m c) : sProp 𝕄)
        = StableHlo.held (c : Thread nD τ) (Pipeline.ucRefs τ sig) (V0 m c) from Pipeline.unscopedBufs_held c (V0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (E0 m) c 0]
      icases HO with ⟨%W, HO⟩; iexists W; isplitr
      · ipureintro; exact fun _ _ => Or.inl ((recorded_eq0 (E0 m) c 0).symm ▸ Set.mem_univ _)
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (E0 m) c w)
      (E0 m c) (fun b => X1 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last (Pipeline.pin (pcfgs (F := F)) adm 0).N) = 0 from owed_eq0 (E0 m) c _]
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed_eq1 (E1 m) c t
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (E1 m) c w) (E1 m c) fun w => A_eq1 (E1 m) c w
    rw [show (unscopedBufs (Ix := Unit) (Name := ℕ) (U := UR sig nD τ) (Lvl := ℕ) c (E1 m c) : sProp 𝕄)
        = StableHlo.held (c : Thread nD τ) (Pipeline.ucRefs τ sig) (X2 m c) from Pipeline.unscopedBufs_held c (X2 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (E1 m) c 0]
      icases HO with ⟨%W, HO⟩; iexists W; isplitr
      · ipureintro; exact fun _ _ => Or.inl ((recorded_eq1 (E1 m) c 0).symm ▸ Set.mem_univ _)
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (E1 m) c w)
      (E1 m c) (fun b => X3 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last (Pipeline.pin (pcfgs (F := F)) adm 1).N) = 0 from owed_eq1 (E1 m) c _]
    icases HO with ⟨%W, -, HO⟩; iexists W; iexact HO

abbrev segs : List (Pipeline.Seg (pcfgs (F := F)) adm (pdats m) () defs₀ 𝒱₀ L lv) :=
  [ .region (reg0 m),
    .host (hseg hostOps1 hostOps1_sub hostOps1_fresh (X1 m)),
    .region (reg1 m),
    .host (hseg hostOps2 hostOps2_sub hostOps2_fresh (X3 m)),
    .host (hseg hostOps2_1 hostOps2_1_sub hostOps2_1_fresh fun c => StableHlo.after hostOps2 (X3 m c)),
    .host (hseg hostOps2_2 hostOps2_2_sub hostOps2_2_fresh fun c => StableHlo.after hostOps2_1 (StableHlo.after hostOps2 (X3 m c))) ]

set_option backward.isDefEq.respectTransparency.types false in

-- The program's six items run in turn; at the end every buffer it names holds the last valuation.
theorem run_post {Q : PUnit × MemSt nD τ sig (Elt F) → Prop}
    (hQ : ∀ s : MemSt nD τ sig (Elt F), (∀ c : Dev nD, ∀ b ∈ Pipeline.ucRefs τ sig, s.mem ((c : Thread nD τ).1, b) = X6 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun c =>
      show iprop(StableHlo.held (c : Thread nD τ) (Pipeline.ucRefs τ sig) (X6 m c) ∗ R c)
        ⊢ iprop(Tₙ m c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X6 m c b)
    (hfin := fun c s' => by
      iintro ⟨⟨Hh, -⟩, HSI⟩
      unfold StableHlo.held
      imodintro
      iapply (pointsTo_read_all (Pipeline.ucRefs τ sig) (fun b => (((c : Thread nD τ)).1, b)) (X6 m c) s')
      isplitl [Hh] <;> iassumption)
    (hQ := hQ)

end Launch

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Launch.run_post m ρ fun _ h c =>
    ⟨(h c _ (mem_uc main_arg0 (by decide))).trans (X6_main_arg0 m c),
     (h c _ (mem_uc main_arg1 (by decide))).trans (X6_main_arg1 m c),
     (h c _ (mem_uc main_arg2 (by decide))).trans (X6_main_arg2 m c)⟩

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev TL : Type := (⟨2, ![1, 262144]⟩ : Shape).Idx → BitVec 32
abbrev TE : Type := (⟨3, ![1, 262144, 128]⟩ : Shape).Idx → EReal
abbrev TG : Type := (⟨2, ![1, 262144]⟩ : Shape).Idx → EReal
abbrev TM : Type := (⟨2, ![128, 128]⟩ : Shape).Idx → EReal
abbrev TQ : Type := (⟨2, ![1, 128]⟩ : Shape).Idx → EReal

abbrev z0 : EReal := Ideal.ofBits .f32 0x00000000#32
abbrev one : EReal := Ideal.ofBits .f32 0x3F800000#32
abbrev two : EReal := Ideal.ofBits .f32 0x40000000#32
abbrev margin : EReal := Ideal.ofBits .f32 0x3F333333#32

def lab (t : TL) (n : Fin 262144) : Int := (t (ix2 0 n)).toInt

def segSum (t : TL) (m : Nat) (f : Fin 262144 → EReal) : EReal :=
  ∑ n : Fin 262144, if lab t n = (m : Int) then f n else 0

def pt (c : Fin 2) (i : Fin 16) (r : Fin 8192) : Fin 262144 :=
  ⟨(c.val * 16 + i.val) * 8192 + r.val, by have := c.isLt; have := i.isLt; have := r.isLt; omega⟩

def P0at (t : TL) (e : TE) (c : Fin 2) (m k : Fin 128) : EReal :=
  ∑ i : Fin 16, ∑ r : Fin 8192, if lab t (pt c i r) = (m.val : Int) then e (ix3 0 (pt c i r) k) else 0

def P0 (t : TL) (e : TE) : (⟨3, ![2, 128, 128]⟩ : Shape).Idx → EReal :=
  fun j => P0at t e (j 0) (j 1) (j 2)

def dotAt (e : TE) (mu : TM) (n : Fin 262144) (m : Fin 128) : EReal :=
  ∑ k : Fin 128, e (ix3 0 n k) * mu (ix2 m k)

def normSq (e : TE) (n : Fin 262144) : EReal := ∑ k : Fin 128, e (ix3 0 n k) * e (ix3 0 n k)

def pick (t : TL) (e : TE) (mu : TM) (msq : TQ) (n : Fin 262144) : EReal :=
  ∑ m : Fin 128, if lab t n = (m.val : Int) then msq (ix2 0 m) - two * dotAt e mu n m else 0

def dist (t : TL) (e : TE) (mu : TM) (msq : TQ) (n : Fin 262144) : EReal :=
  Ideal.sqrt (max (normSq e n + pick t e mu msq n) z0)

def pp (t : TL) (g : TG) (e : TE) (mu : TM) (msq : TQ) (n : Fin 262144) : EReal :=
  g (ix2 0 n) * (max (dist t e mu msq n - margin) z0 * max (dist t e mu msq n - margin) z0)

def P1at (t : TL) (g : TG) (e : TE) (mu : TM) (msq : TQ) (c : Fin 2) (m : Fin 128) : EReal :=
  ∑ i : Fin 16, ∑ r : Fin 8192, if lab t (pt c i r) = (m.val : Int) then pp t g e mu msq (pt c i r) else 0

def P1 (t : TL) (g : TG) (e : TE) (mu : TM) (msq : TQ) : (⟨3, ![2, 1, 128]⟩ : Shape).Idx → EReal :=
  fun j => P1at t g e mu msq (j 0) (j 2)

def cnt (t : TL) (m : Nat) : EReal := segSum t m fun _ => one

def safe (t : TL) (m : Nat) : EReal := max (cnt t m) one

def sumE (t : TL) (e : TE) (m : Nat) (k : Fin 128) : EReal := segSum t m fun n => e (ix3 0 n k)
def mean (t : TL) (e : TE) (m : Nat) (k : Fin 128) : EReal := Ideal.div (sumE t e m k) (safe t m)

def muK (t : TL) (e : TE) : TM := fun j => mean t e (j 0).val (j 1)
def msqK (t : TL) (e : TE) : TQ := fun j => ∑ k : Fin 128, mean t e (j 1).val k * mean t e (j 1).val k

def ppRef (t : TL) (g : TG) (e : TE) (m : Nat) (n : Fin 262144) : EReal :=
  g (ix2 0 n) * (max (Ideal.sqrt (∑ k : Fin 128, (e (ix3 0 n k) - mean t e m k) * (e (ix3 0 n k) - mean t e m k)) - margin) z0
    * max (Ideal.sqrt (∑ k : Fin 128, (e (ix3 0 n k) - mean t e m k) * (e (ix3 0 n k) - mean t e m k)) - margin) z0)

def ptEquiv : Fin 2 × Fin 16 × Fin 8192 ≃ Fin 262144 where
  toFun x := pt x.1 x.2.1 x.2.2
  invFun n := (⟨n.val / 131072, by have := n.isLt; omega⟩, ⟨n.val / 8192 % 16, by omega⟩, ⟨n.val % 8192, by omega⟩)
  left_inv x := by
    obtain ⟨c, i, r⟩ := x
    have := c.isLt; have := i.isLt; have := r.isLt
    simp only [pt, Prod.mk.injEq, Fin.ext_iff]
    refine ⟨?_, ?_, ?_⟩ <;> omega
  right_inv n := by
    have := n.isLt
    simp only [pt, Fin.ext_iff]
    omega

theorem sum_pt (f : Fin 262144 → EReal) :
    ∑ c : Fin 2, ∑ i : Fin 16, ∑ r : Fin 8192, f (pt c i r) = ∑ n : Fin 262144, f n := by
  rw [← Equiv.sum_comp ptEquiv f, Fintype.sum_prod_type]
  refine Finset.sum_congr rfl fun c _ => ?_
  rw [Fintype.sum_prod_type]
  rfl

theorem halves_segSum (t : TL) (m : Nat) (f : Fin 262144 → EReal) :
    ∑ c : Fin 2, ∑ i : Fin 16, ∑ r : Fin 8192, (if lab t (pt c i r) = (m : Int) then f (pt c i r) else 0)
      = segSum t m f :=
  sum_pt fun n => if lab t n = (m : Int) then f n else 0

end Cert.Spec

end
-- ==== Proof.Out.lean ====
import proofs.«416506_j31988916420713_3_alg».proof.Proof.Spec

noncomputable section

namespace Cert.Spec

open Idealize.ShloMosaic Idealize.ShloMosaic.ValueIdx

def Aspec (t : TL) (g : TG) (e : TE) : (⟨1, ![19]⟩ : Shape).Idx → EReal :=
  fun j => Ideal.div (segSum t ((j 0).val + 1) (ppRef t g e ((j 0).val + 1))) (safe t ((j 0).val + 1))

def Bspec (t : TL) (e : TE) : (⟨2, ![19, 128]⟩ : Shape).Idx → EReal :=
  fun j => mean t e ((j 0).val + 1) (j 1)

end Cert.Spec

end
-- ==== Proof.Algebra.lean ====
import proofs.«416506_j31988916420713_3_alg».proof.Proof.Spec
import Idealize.ShloMosaic.PureOps.Ideal.Laws
import Idealize.ShloMosaic.Lib.IdealHost
import Mathlib.Data.EReal.Operations
import Mathlib.Algebra.BigOperators.Ring.Finset
import Mathlib.Algebra.Order.BigOperators.Group.Finset
import Mathlib.Tactic.Ring
import Mathlib.Tactic.NormNum

noncomputable section

namespace Cert.Algebra

open Idealize.ShloMosaic Idealize.ShloMosaic.ValueIdx Cert.Spec
open scoped BigOperators

theorem z0_eq : z0 = 0 := Ideal.ofBits_zero_f32

theorem one_eq : one = ((1 : ℝ) : EReal) := by
  rw [EReal.coe_one]; exact Ideal.ofBits_one_f32

theorem two_eq : two = ((2 : ℝ) : EReal) := by
  show Ideal.ofBits .f32 0x40000000#32 = _
  simp [Ideal.ofBits, Ideal.ieee, -EReal.coe_mul]; norm_num

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_finite {ι : Type} (s : Finset ι) (f : ι → EReal) (hf : ∀ i, ∃ x : ℝ, f i = x) :
    ∃ x : ℝ, ∑ i ∈ s, f i = x := by
  choose g hg using hf
  exact ⟨∑ i ∈ s, g i, by rw [← coe_sum]; exact Finset.sum_congr rfl fun i _ => hg i⟩

def FiniteE (e : TE) : Prop := ∀ i, ∃ x : ℝ, e i = (x : EReal)

theorem segSum_finite (t : TL) (m : Nat) (f : Fin 262144 → EReal) (hf : ∀ n, ∃ x : ℝ, f n = x) :
    ∃ x : ℝ, segSum t m f = x := by
  unfold segSum
  refine sum_finite _ _ fun n => ?_
  by_cases h : lab t n = (m : Int)
  · rw [if_pos h]; exact hf n
  · rw [if_neg h]; exact ⟨0, rfl⟩

theorem safe_pos (t : TL) (m : Nat) : ∃ x : ℝ, 1 ≤ x ∧ safe t m = x := by
  have hc : cnt t m = ((∑ n : Fin 262144, if lab t n = (m : Int) then (1 : ℝ) else 0 : ℝ) : EReal) := by
    unfold cnt segSum
    rw [← coe_sum]
    refine Finset.sum_congr rfl fun n _ => ?_
    by_cases h : lab t n = (m : Int)
    · rw [if_pos h, if_pos h]; exact one_eq
    · rw [if_neg h, if_neg h]; rfl
  refine ⟨max (∑ n : Fin 262144, if lab t n = (m : Int) then (1 : ℝ) else 0) 1, le_max_right _ _, ?_⟩
  unfold safe
  rw [hc, one_eq]
  exact (EReal.coe_strictMono.monotone.map_max).symm

theorem mean_finite (t : TL) (e : TE) (he : FiniteE e) (m : Nat) (k : Fin 128) : ∃ x : ℝ, mean t e m k = x := by
  obtain ⟨s, hs⟩ := segSum_finite t m (fun n => e (ix3 0 n k)) fun n => he _
  obtain ⟨c, hc1, hc⟩ := safe_pos t m
  refine ⟨s * (1 / c), ?_⟩
  unfold mean sumE
  rw [hs, hc, Ideal.div_coe (ne_of_gt (lt_of_lt_of_le one_pos hc1)), ← EReal.coe_mul]

theorem pick_eq (t : TL) (e : TE) (mu : TM) (msq : TQ) (n : Fin 262144) (m : Fin 128)
    (h : lab t n = (m.val : Int)) :
    pick t e mu msq n = msq (ix2 0 m) - two * dotAt e mu n m := by
  unfold pick
  rw [Finset.sum_eq_single m]
  · rw [if_pos h]
  · intro m' _ hne
    rw [if_neg]
    rw [h]
    intro heq
    exact hne (Fin.ext (by omega))
  · intro hm; exact absurd (Finset.mem_univ m) hm

-- On real entries ‖e‖² + (‖μ‖² − 2 e·μ) is ∑ (e − μ)², so the expanded distance is the direct one.
theorem dist_eq (t : TL) (e : TE) (he : FiniteE e) (m : Fin 128) (n : Fin 262144)
    (h : lab t n = (m.val : Int)) :
    dist t e (muK t e) (msqK t e) n
      = Ideal.sqrt (∑ k : Fin 128, (e (ix3 0 n k) - mean t e m.val k) * (e (ix3 0 n k) - mean t e m.val k)) := by
  have ha : ∀ k : Fin 128, ∃ x : ℝ, e (ix3 0 n k) = x := fun k => he _
  have hb : ∀ k : Fin 128, ∃ x : ℝ, mean t e m.val k = x := fun k => mean_finite t e he m.val k
  choose a ha using ha
  choose b hb using hb
  have hN : normSq e n = ((∑ k, a k * a k : ℝ) : EReal) := by
    unfold normSq
    rw [← coe_sum]
    exact Finset.sum_congr rfl fun k _ => by rw [ha k, EReal.coe_mul]
  have hQ : msqK t e (ix2 0 m) = ((∑ k, b k * b k : ℝ) : EReal) := by
    show ∑ k : Fin 128, mean t e m.val k * mean t e m.val k = _
    rw [← coe_sum]
    exact Finset.sum_congr rfl fun k _ => by rw [hb k, EReal.coe_mul]
  have hD : dotAt e (muK t e) n m = ((∑ k, a k * b k : ℝ) : EReal) := by
    show ∑ k : Fin 128, e (ix3 0 n k) * mean t e m.val k = _
    rw [← coe_sum]
    exact Finset.sum_congr rfl fun k _ => by rw [ha k, hb k, EReal.coe_mul]
  have hR : ∑ k : Fin 128, (e (ix3 0 n k) - mean t e m.val k) * (e (ix3 0 n k) - mean t e m.val k)
      = ((∑ k, (a k - b k) * (a k - b k) : ℝ) : EReal) := by
    rw [← coe_sum]
    exact Finset.sum_congr rfl fun k _ => by rw [ha k, hb k, ← EReal.coe_sub, EReal.coe_mul]
  have hreal : (∑ k, a k * a k) + ((∑ k, b k * b k) - 2 * ∑ k, a k * b k) = ∑ k, (a k - b k) * (a k - b k) := by
    rw [Finset.mul_sum, ← Finset.sum_sub_distrib, ← Finset.sum_add_distrib]
    exact Finset.sum_congr rfl fun k _ => by ring
  have hnn : (0 : ℝ) ≤ ∑ k, (a k - b k) * (a k - b k) := Finset.sum_nonneg fun k _ => mul_self_nonneg _
  unfold Cert.Spec.dist
  rw [pick_eq t e _ _ n m h, hN, hQ, hD, two_eq, hR, z0_eq, ← EReal.coe_mul, ← EReal.coe_sub, ← EReal.coe_add, hreal,
    max_eq_left (EReal.coe_nonneg.mpr hnn)]

theorem pp_eq_ppRef (t : TL) (g : TG) (e : TE) (he : FiniteE e) (m : Fin 128) (n : Fin 262144)
    (h : lab t n = (m.val : Int)) :
    pp t g e (muK t e) (msqK t e) n = ppRef t g e m.val n := by
  unfold pp ppRef
  rw [dist_eq t e he m n h]

end Cert.Algebra

end
-- ==== Proof.Bridge0.lean ====
import proofs.«416506_j31988916420713_3_alg».proof.Proof.Spec
import proofs.«416506_j31988916420713_3_alg».proof.Proof.Algebra

noncomputable section

namespace Cert.Bridge0

open Idealize.ShloMosaic Idealize.ShloMosaic.ValueIdx Cert.Spec
open scoped BigOperators

theorem loss_halves (t : TL) (g : TG) (e : TE) (he : Cert.Algebra.FiniteE e) (m : Fin 128) :
    z0 + ∑ c : Fin 2, P1at t g e (muK t e) (msqK t e) c m = segSum t m.val (ppRef t g e m.val) := by
  rw [Cert.Algebra.z0_eq, zero_add]
  refine (halves_segSum t m.val (pp t g e (muK t e) (msqK t e))).trans ?_
  unfold segSum
  refine Finset.sum_congr rfl fun n _ => ?_
  by_cases h : lab t n = (m.val : Int)
  · rw [if_pos h, if_pos h]; exact Cert.Algebra.pp_eq_ppRef t g e he m n h
  · rw [if_neg h, if_neg h]

end Cert.Bridge0

end
-- ==== Proof.Tail.lean ====
import proofs.«416506_j31988916420713_3_alg».proof.KernelIdeal

noncomputable section

namespace Cert.Tail

open Idealize.ShloMosaic
open Cert.KernelIdeal
open Cert.KernelIdeal.Facts₀ Cert.KernelIdeal.Facts

variable {F : FTy → Type} [FloatOps F] [Cert.KernelIdeal.Facts]

def gS (p : FVec F S1x262144x3 .f32) : FVec F S1x262144 .f32 :=
  Host.divf (broadcastInDim S1x262144 ![] bcast_S_S1x262144 (constant (F := F) S_ .f32 0x3F800000#32))
    (addf (broadcastInDim S1x262144 ![] bcast_S_S1x262144 (constant (F := F) S_ .f32 0x3F800000#32))
      (Host.exp
        (Host.negf
          (Host.sqrt
            (Host.reduceAdd (mulf p p) (constant (F := F) S_ .f32 0x00000000#32) reducesTo_S1x262144x3_S1x262144_d2 h_S_)))))

def eyeI : IVec S19x19 1 :=
  cmpi .eq (addi (iotaInDim S19x19 32 0) (broadcastInDim S19x19 ![] bcast_S_S19x19 (constantI S_ 32 0#32))) (iotaInDim S19x19 32 1)
def eyeF : FVec F S19x19 .f32 := uitofp .f32 eyeI

def rowsB (B : FVec F S19x128 .f32) : FVec F S19x19x128 .f32 :=
  broadcastInDim S19x19x128 ![0, 1, 2] bcast_S19x1x128_S19x19x128_0_1_2 (broadcastInDim S19x1x128 ![0, 2] bcast_S19x128_S19x1x128_0_2 B)
def colsB (B : FVec F S19x128 .f32) : FVec F S19x19x128 .f32 :=
  broadcastInDim S19x19x128 ![0, 1, 2] bcast_S1x19x128_S19x19x128_0_1_2 (broadcastInDim S1x19x128 ![1, 2] bcast_S19x128_S1x19x128_1_2 B)

def sqT (B : FVec F S19x128 .f32) : FVec F S19x19 .f32 :=
  Host.reduceAdd (mulf (subf (rowsB B) (colsB B)) (subf (rowsB B) (colsB B))) (constant (F := F) S_ .f32 0x00000000#32)
    reducesTo_S19x19x128_S19x19_d2 h_S_

def distT (B : FVec F S19x128 .f32) : FVec F S19x19 .f32 :=
  Host.sqrt
    (select (cmpf .ogt (eyeF (F := F)) (broadcastInDim S19x19 ![] bcast_S_S19x19 (constant (F := F) S_ .f32 0x00000000#32)))
      (broadcastInDim S19x19 ![] bcast_S_S19x19 (constant (F := F) S_ .f32 0x3F800000#32))
      (sqT B))

def hingeT (B : FVec F S19x128 .f32) : FVec F S19x19 .f32 :=
  maximumf (subf (broadcastInDim S19x19 ![] bcast_S_S19x19 (constant (F := F) S_ .f32 0x3FC00000#32)) (distT B))
    (broadcastInDim S19x19 ![] bcast_S_S19x19 (constant (F := F) S_ .f32 0x00000000#32))

def interT (B : FVec F S19x128 .f32) : FVec F S_ .f32 :=
  Host.reduceAdd
    (mulf (subf (broadcastInDim S19x19 ![] bcast_S_S19x19 (constant (F := F) S_ .f32 0x3F800000#32)) (eyeF (F := F)))
      (mulf (hingeT B) (hingeT B)))
    (constant (F := F) S_ .f32 0x00000000#32) reducesTo_S19x19_S_d0_1 h_S_

def tailT (A : FVec F S19 .f32) (B : FVec F S19x128 .f32) : FVec F S1 .f32 :=
  broadcastInDim S1 ![] bcast_S_S1
    (addf
      (Host.divf (Host.reduceAdd A (constant (F := F) S_ .f32 0x00000000#32) reducesTo_S19_S_d0 h_S_) (constant (F := F) S_ .f32 0x41A00000#32))
      (Host.divf (interT B) (constant (F := F) S_ .f32 0x43BE0000#32)))

end Cert.Tail

end
-- ==== Proof.Reads.lean ====
import proofs.«416506_j31988916420713_3_alg».proof.KernelIdeal
import proofs.«416506_j31988916420713_3_alg».proof.ReferenceIdeal
import proofs.«416506_j31988916420713_3_alg».proof.Proof.Spec
import Idealize.ShloMosaic.Lib.ValueIdx
import Idealize.ShloMosaic.Lib.ValueIdxRank1

noncomputable section

namespace Cert.Reads

open Idealize.ShloMosaic Idealize.ShloMosaic.ValueIdx
open scoped BigOperators

abbrev rowDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem rowDims_start {N M w : Nat} (wf : ScatterDims.WF ⟨1, ![N]⟩ ⟨2, ![M, 1]⟩ ⟨1, ![M]⟩ [] [0] [0] 1)
    (n : Fin M) (idx : IVec ⟨2, ![M, 1]⟩ w) (a : Fin 1) :
    (rowDims N M wf).start (ix1 n) idx a = (idx (ix2 n 0)).toInt := by
  obtain rfl : a = 0 := Subsingleton.elim _ _
  unfold ScatterDims.start
  rw [dif_pos (show (0 : Fin 1) ∈ (rowDims N M wf).scatterDimsToOperandDims from List.mem_singleton.mpr rfl)]
  have hsi : (rowDims N M wf).siIdx (ix1 n) ⟨List.idxOf (0 : Fin 1) (rowDims N M wf).scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

theorem rowDims_window {N M : Nat} (wf : ScatterDims.WF ⟨1, ![N]⟩ ⟨2, ![M, 1]⟩ ⟨1, ![M]⟩ [] [0] [0] 1)
    (j : (⟨1, ![M]⟩ : Shape).Idx) (a : Fin 1) : (rowDims N M wf).window j a = 0 := by
  obtain rfl : a = 0 := Subsingleton.elim _ _
  unfold ScatterDims.window
  rw [dif_neg (by simp [ScatterDims.sKept, Shape.kept, List.mem_filter])]

theorem rowDims_resultIdx?_eq_some_iff {N M w : Nat} (wf : ScatterDims.WF ⟨1, ![N]⟩ ⟨2, ![M, 1]⟩ ⟨1, ![M]⟩ [] [0] [0] 1)
    (n : Fin M) (idx : IVec ⟨2, ![M, 1]⟩ w) (m : Fin N) :
    (rowDims N M wf).resultIdx? (ix1 n) idx = some (ix1 m) ↔ (idx (ix2 n 0)).toInt = (m.val : Int) := by
  have hm : m.val < N := m.isLt
  unfold ScatterDims.resultIdx?
  simp only [rowDims_start, rowDims_window]
  constructor
  · intro h
    split at h
    · rename_i hb
      have h0 := congrFun (Option.some.inj h) 0
      have h1 : ((idx (ix2 n 0)).toInt + ((0 : Nat) : Int)).toNat = m.val := congrArg Fin.val h0
      have := (hb 0).1
      omega
    · exact absurd h (by simp)
  · intro h
    have hb : ∀ a : Fin 1, 0 ≤ (idx (ix2 n 0)).toInt + ((0 : Nat) : Int) ∧
        (idx (ix2 n 0)).toInt + ((0 : Nat) : Int) < ((⟨1, ![N]⟩ : Shape).size a : Int) := by
      intro a
      obtain rfl : a = 0 := Subsingleton.elim _ _
      show 0 ≤ (idx (ix2 n 0)).toInt + ((0 : Nat) : Int) ∧ (idx (ix2 n 0)).toInt + ((0 : Nat) : Int) < (N : Int)
      omega
    rw [dif_pos hb]
    refine congrArg some (funext fun a => ?_)
    obtain rfl : a = 0 := Subsingleton.elim _ _
    refine Fin.ext ?_
    show ((idx (ix2 n 0)).toInt + ((0 : Nat) : Int)).toNat = m.val
    omega

theorem rowDims_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (m : Fin N) :
    Ideal.hostScatterAdd (rowDims N M wf) x idx upd (ix1 m)
      = x (ix1 m) + ∑ n : Fin M, if (idx (ix2 n 0)).toInt = (m.val : Int) then upd (ix1 n) else 0 := by
  unfold Ideal.hostScatterAdd
  refine congrArg (x (ix1 m) + ·) ?_
  rw [Finset.sum_filter]
  refine Fintype.sum_equiv idxEquiv1 _ _ fun j => ?_
  obtain ⟨p, rfl⟩ : ∃ p : Fin M, j = ix1 p := ⟨j 0, eq_ix1 j⟩
  exact if_congr (rowDims_resultIdx?_eq_some_iff wf p idx m) rfl rfl

abbrev rowsDims (N K M : Nat) (wf : ScatterDims.WF ⟨2, ![N, K]⟩ ⟨2, ![M, 1]⟩ ⟨2, ![M, K]⟩ [1] [0] [0] 1) :
    ScatterDims ⟨2, ![N, K]⟩ ⟨2, ![M, 1]⟩ ⟨2, ![M, K]⟩ where
  updateWindowDims := [1]
  insertedWindowDims := [0]
  scatterDimsToOperandDims := [0]
  indexVectorDim := 1
  wf := wf

theorem rowsDims_start0 {N K M w : Nat} (wf : ScatterDims.WF ⟨2, ![N, K]⟩ ⟨2, ![M, 1]⟩ ⟨2, ![M, K]⟩ [1] [0] [0] 1)
    (n : Fin M) (k : Fin K) (idx : IVec ⟨2, ![M, 1]⟩ w) :
    (rowsDims N K M wf).start (ix2 n k) idx 0 = (idx (ix2 n 0)).toInt := by
  unfold ScatterDims.start
  rw [dif_pos (show (0 : Fin 2) ∈ (rowsDims N K M wf).scatterDimsToOperandDims from List.mem_singleton.mpr rfl)]
  have hsi : (rowsDims N K M wf).siIdx (ix2 n k) ⟨List.idxOf (0 : Fin 2) (rowsDims N K M wf).scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

theorem rowsDims_start1 {N K M w : Nat} (wf : ScatterDims.WF ⟨2, ![N, K]⟩ ⟨2, ![M, 1]⟩ ⟨2, ![M, K]⟩ [1] [0] [0] 1)
    (j : (⟨2, ![M, K]⟩ : Shape).Idx) (idx : IVec ⟨2, ![M, 1]⟩ w) :
    (rowsDims N K M wf).start j idx 1 = 0 := by
  unfold ScatterDims.start
  rw [dif_neg (by simp)]

theorem rowsDims_window0 {N K M : Nat} (wf : ScatterDims.WF ⟨2, ![N, K]⟩ ⟨2, ![M, 1]⟩ ⟨2, ![M, K]⟩ [1] [0] [0] 1)
    (j : (⟨2, ![M, K]⟩ : Shape).Idx) : (rowsDims N K M wf).window j 0 = 0 := by
  unfold ScatterDims.window
  rw [dif_neg (by simp [ScatterDims.sKept, Shape.kept, List.mem_filter])]

theorem rowsDims_window1 {N K M : Nat} (wf : ScatterDims.WF ⟨2, ![N, K]⟩ ⟨2, ![M, 1]⟩ ⟨2, ![M, K]⟩ [1] [0] [0] 1)
    (n : Fin M) (k : Fin K) : (rowsDims N K M wf).window (ix2 n k) 1 = k.val := by
  unfold ScatterDims.window
  rw [dif_pos (by simp [ScatterDims.sKept, Shape.kept, List.mem_filter])]
  rfl

theorem rowsDims_resultIdx?_eq_some_iff {N K M w : Nat}
    (wf : ScatterDims.WF ⟨2, ![N, K]⟩ ⟨2, ![M, 1]⟩ ⟨2, ![M, K]⟩ [1] [0] [0] 1)
    (n : Fin M) (k' : Fin K) (idx : IVec ⟨2, ![M, 1]⟩ w) (m : Fin N) (k : Fin K) :
    (rowsDims N K M wf).resultIdx? (ix2 n k') idx = some (ix2 m k) ↔
      ((idx (ix2 n 0)).toInt = (m.val : Int) ∧ k' = k) := by
  have hm : m.val < N := m.isLt
  have hk : k.val < K := k.isLt
  have hk' : k'.val < K := k'.isLt
  have e0 : (rowsDims N K M wf).start (ix2 n k') idx 0 + ((rowsDims N K M wf).window (ix2 n k') 0 : Int)
      = (idx (ix2 n 0)).toInt := by
    rw [rowsDims_start0, rowsDims_window0]; simp
  have e1 : (rowsDims N K M wf).start (ix2 n k') idx 1 + ((rowsDims N K M wf).window (ix2 n k') 1 : Int)
      = (k'.val : Int) := by
    rw [rowsDims_start1, rowsDims_window1]; simp
  unfold ScatterDims.resultIdx?
  constructor
  · intro h
    split at h
    · rename_i hb
      have hf := Option.some.inj h
      have h0 : ((rowsDims N K M wf).start (ix2 n k') idx 0 + ((rowsDims N K M wf).window (ix2 n k') 0 : Int)).toNat = m.val :=
        congrArg Fin.val (congrFun hf 0)
      have h1 : ((rowsDims N K M wf).start (ix2 n k') idx 1 + ((rowsDims N K M wf).window (ix2 n k') 1 : Int)).toNat = k.val :=
        congrArg Fin.val (congrFun hf 1)
      have hb0 := (hb 0).1
      rw [e0] at h0 hb0
      rw [e1] at h1
      exact ⟨by omega, Fin.ext (by omega)⟩
    · exact absurd h (by simp)
  · rintro ⟨h, rfl⟩
    have hb : ∀ a : Fin 2, 0 ≤ (rowsDims N K M wf).start (ix2 n k') idx a + ((rowsDims N K M wf).window (ix2 n k') a : Int) ∧
        (rowsDims N K M wf).start (ix2 n k') idx a + ((rowsDims N K M wf).window (ix2 n k') a : Int)
          < ((⟨2, ![N, K]⟩ : Shape).size a : Int) := by
      intro a
      match a with
      | ⟨0, _⟩ =>
        show 0 ≤ (rowsDims N K M wf).start (ix2 n k') idx 0 + ((rowsDims N K M wf).window (ix2 n k') 0 : Int) ∧
          (rowsDims N K M wf).start (ix2 n k') idx 0 + ((rowsDims N K M wf).window (ix2 n k') 0 : Int) < (N : Int)
        rw [e0]; omega
      | ⟨1, _⟩ =>
        show 0 ≤ (rowsDims N K M wf).start (ix2 n k') idx 1 + ((rowsDims N K M wf).window (ix2 n k') 1 : Int) ∧
          (rowsDims N K M wf).start (ix2 n k') idx 1 + ((rowsDims N K M wf).window (ix2 n k') 1 : Int) < (K : Int)
        rw [e1]; omega
    rw [dif_pos hb]
    refine congrArg some (funext fun a => ?_)
    refine Fin.ext ?_
    match a with
    | ⟨0, _⟩ =>
      show ((rowsDims N K M wf).start (ix2 n k') idx 0 + ((rowsDims N K M wf).window (ix2 n k') 0 : Int)).toNat = m.val
      rw [e0]; omega
    | ⟨1, _⟩ =>
      show ((rowsDims N K M wf).start (ix2 n k') idx 1 + ((rowsDims N K M wf).window (ix2 n k') 1 : Int)).toNat = k'.val
      rw [e1]; omega

theorem rowsDims_apply {N K M w : Nat} (wf : ScatterDims.WF ⟨2, ![N, K]⟩ ⟨2, ![M, 1]⟩ ⟨2, ![M, K]⟩ [1] [0] [0] 1)
    (x : (⟨2, ![N, K]⟩ : Shape).Idx → EReal) (idx : IVec ⟨2, ![M, 1]⟩ w) (upd : (⟨2, ![M, K]⟩ : Shape).Idx → EReal)
    (m : Fin N) (k : Fin K) :
    Ideal.hostScatterAdd (rowsDims N K M wf) x idx upd (ix2 m k)
      = x (ix2 m k) + ∑ n : Fin M, if (idx (ix2 n 0)).toInt = (m.val : Int) then upd (ix2 n k) else 0 := by
  unfold Ideal.hostScatterAdd
  refine congrArg (x (ix2 m k) + ·) ?_
  rw [Finset.sum_filter, sum_idx2]
  refine Finset.sum_congr rfl fun n _ => ?_
  simp only [rowsDims_resultIdx?_eq_some_iff]
  by_cases h : (idx (ix2 n 0)).toInt = (m.val : Int)
  · simp only [h, true_and, if_true]
    exact Finset.sum_ite_eq' Finset.univ k (fun k' => upd (ix2 n k')) |>.trans (if_pos (Finset.mem_univ k))
  · simp only [h, false_and, if_false]
    exact Finset.sum_const_zero

abbrev rowGather (N K R M : Nat)
    (wf : GatherDims.WF ⟨2, ![N, K]⟩ ⟨3, ![R, M, 1]⟩ ⟨3, ![R, M, K]⟩ [2] [0] [] [0] [] 2 ![1, K]) :
    GatherDims ⟨2, ![N, K]⟩ ⟨3, ![R, M, 1]⟩ ⟨3, ![R, M, K]⟩ where
  offsetDims := [2]
  collapsedSliceDims := [0]
  operandBatchingDims := []
  startIndicesBatchingDims := []
  startIndexMap := [0]
  indexVectorDim := 2
  sliceSizes := ![1, K]
  wf := wf

theorem rowGather_apply {α : Type} {N K R M w : Nat}
    (wf : GatherDims.WF ⟨2, ![N, K]⟩ ⟨3, ![R, M, 1]⟩ ⟨3, ![R, M, K]⟩ [2] [0] [] [0] [] 2 ![1, K])
    (x : (⟨2, ![N, K]⟩ : Shape).Idx → α) (idx : IVec ⟨3, ![R, M, 1]⟩ w) (r : Fin R) (n : Fin M) (k : Fin K) (m : Fin N)
    (h : (idx (ix3 r n 0)).toInt = (m.val : Int)) :
    Host.gather (rowGather N K R M wf) x idx (ix3 r n k) = x (ix2 m k) := by
  have hm : m.val < N := m.isLt
  unfold Host.gather
  refine congrArg x (funext fun a => Fin.ext ?_)
  match a with
  | ⟨0, _⟩ =>
    show (rowGather N K R M wf).start (ix3 r n k) idx 0 + (rowGather N K R M wf).batchCoord (ix3 r n k) 0
      + (rowGather N K R M wf).offCoord (ix3 r n k) 0 = m.val
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ (rowGather N K R M wf).startIndexMap from List.mem_singleton.mpr rfl)]
    have hsi : (rowGather N K R M wf).siIdx (ix3 r n k) ⟨List.idxOf (0 : Fin 2) (rowGather N K R M wf).startIndexMap,
        List.idxOf_lt_length_iff.2 (List.mem_singleton.mpr rfl)⟩ = ix3 r n 0 := by
      funext b; refine Fin.ext ?_
      match b with
      | ⟨0, _⟩ => rfl
      | ⟨1, _⟩ => rfl
      | ⟨2, _⟩ => rfl
    rw [hsi, h]
    show min ((m.val : Int)).toNat (N - 1) = m.val
    omega
  | ⟨1, _⟩ =>
    show (rowGather N K R M wf).start (ix3 r n k) idx 1 + (rowGather N K R M wf).batchCoord (ix3 r n k) 1
      + (rowGather N K R M wf).offCoord (ix3 r n k) 1 = k.val
    rw [GatherDims.batchCoord_eq_zero _ _ _ List.not_mem_nil]
    have hs : (rowGather N K R M wf).start (ix3 r n k) idx 1 = 0 := by
      unfold GatherDims.start
      rw [dif_neg (by simp)]
    have ho : (rowGather N K R M wf).offCoord (ix3 r n k) 1 = k.val := by
      unfold GatherDims.offCoord
      rw [dif_pos (by simp [GatherDims.sKept, Shape.kept, List.mem_filter])]
      rfl
    rw [hs, ho]
    omega

section Kernel
variable [Cert.KernelIdeal.Facts₀]

theorem scatterK_eq : Cert.KernelIdeal.scatter_S128_S262144x1_S262144_n_0_0_1
    = rowDims 128 262144 Cert.KernelIdeal.Facts₀.scatter_S128_S262144x1_S262144_n_0_0_1_wf := rfl

theorem scatterK_apply (x : (⟨1, ![128]⟩ : Shape).Idx → EReal) (idx : (⟨2, ![262144, 1]⟩ : Shape).Idx → BitVec 32)
    (upd : (⟨1, ![262144]⟩ : Shape).Idx → EReal) (m : Fin 128) :
    Host.scatterAdd (F := Ideal) (φ := .f32) Cert.KernelIdeal.scatter_S128_S262144x1_S262144_n_0_0_1 x idx upd (ix1 m)
      = x (ix1 m) + ∑ n : Fin 262144, if (idx (ix2 n 0)).toInt = (m.val : Int) then upd (ix1 n) else 0 := by
  rw [scatterK_eq]
  exact rowDims_apply _ x idx upd m

end Kernel

section Reference
variable [Cert.ReferenceIdeal.Facts₀]

theorem scatterR_eq : Cert.ReferenceIdeal.scatter_S20_S262144x1_S262144_n_0_0_1
    = rowDims 20 262144 Cert.ReferenceIdeal.Facts₀.scatter_S20_S262144x1_S262144_n_0_0_1_wf := rfl

theorem scatterR_apply (x : (⟨1, ![20]⟩ : Shape).Idx → EReal) (idx : (⟨2, ![262144, 1]⟩ : Shape).Idx → BitVec 32)
    (upd : (⟨1, ![262144]⟩ : Shape).Idx → EReal) (m : Fin 20) :
    Host.scatterAdd (F := Ideal) (φ := .f32) Cert.ReferenceIdeal.scatter_S20_S262144x1_S262144_n_0_0_1 x idx upd (ix1 m)
      = x (ix1 m) + ∑ n : Fin 262144, if (idx (ix2 n 0)).toInt = (m.val : Int) then upd (ix1 n) else 0 := by
  rw [scatterR_eq]
  exact rowDims_apply _ x idx upd m

theorem scatterR2_eq : Cert.ReferenceIdeal.scatter_S20x128_S262144x1_S262144x128_1_0_0_1
    = rowsDims 20 128 262144 Cert.ReferenceIdeal.Facts₀.scatter_S20x128_S262144x1_S262144x128_1_0_0_1_wf := rfl

theorem scatterR2_apply (x : (⟨2, ![20, 128]⟩ : Shape).Idx → EReal) (idx : (⟨2, ![262144, 1]⟩ : Shape).Idx → BitVec 32)
    (upd : (⟨2, ![262144, 128]⟩ : Shape).Idx → EReal) (m : Fin 20) (k : Fin 128) :
    Host.scatterAdd (F := Ideal) (φ := .f32) Cert.ReferenceIdeal.scatter_S20x128_S262144x1_S262144x128_1_0_0_1 x idx upd (ix2 m k)
      = x (ix2 m k) + ∑ n : Fin 262144, if (idx (ix2 n 0)).toInt = (m.val : Int) then upd (ix2 n k) else 0 := by
  rw [scatterR2_eq]
  exact rowsDims_apply _ x idx upd m k

theorem gatherR_eq : Cert.ReferenceIdeal.gather_S20x128_S1x262144x1_S1x262144x128_2_0_n_n_0_2_1128
    = rowGather 20 128 1 262144 Cert.ReferenceIdeal.Facts₀.gather_S20x128_S1x262144x1_S1x262144x128_2_0_n_n_0_2_1128_wf := rfl

theorem gatherR_apply (x : (⟨2, ![20, 128]⟩ : Shape).Idx → EReal) (idx : (⟨3, ![1, 262144, 1]⟩ : Shape).Idx → BitVec 32)
    (n : Fin 262144) (k : Fin 128) (m : Fin 20) (h : (idx (ix3 0 n 0)).toInt = (m.val : Int)) :
    Host.gather Cert.ReferenceIdeal.gather_S20x128_S1x262144x1_S1x262144x128_2_0_n_n_0_2_1128 x idx (ix3 0 n k) = x (ix2 m k) := by
  rw [gatherR_eq]
  exact rowGather_apply _ x idx 0 n k m h

end Reference

end Cert.Reads

end
-- ==== Proof.RVal.lean ====
import proofs.«416506_j31988916420713_3_alg».proof.Proof.RefRead
import proofs.«416506_j31988916420713_3_alg».proof.Proof.RefRun
import proofs.«416506_j31988916420713_3_alg».proof.Proof.Spec
import proofs.«416506_j31988916420713_3_alg».proof.Proof.Reads
import proofs.«416506_j31988916420713_3_alg».proof.Proof.Tail
import proofs.«416506_j31988916420713_3_alg».proof.Proof.Gen.KernelIdeal

noncomputable section

namespace Cert.ReferenceIdeal.RefVal

open Cert.ReferenceIdeal Cert.ReferenceIdeal.Gen Idealize.ShloMosaic Idealize.ShloMosaic.ValueIdx Cert.Spec
open Idealize.ShloMosaic.TcCoe Idealize.SL.Sem Idealize.ShloMosaic.StableHlo
open scoped BigOperators

theorem v12_at (t : TL) (n : Fin 262144) : ReadP.val_main_v12 (F := Ideal) t (ix2 n 0) = t (ix2 0 n) := by
  rw [ReadP.val_main_v12_apply, ReadP.val_main_v0_apply]
  refine congrArg t (funext fun a => Fin.ext ?_)
  match a with
  | ⟨0, _⟩ => rfl
  | ⟨1, _⟩ => exact Nat.mod_eq_of_lt n.isLt

theorem v18_at (t : TL) (n : Fin 262144) : ReadP.val_main_v18 (F := Ideal) t (ix2 n 0) = t (ix2 0 n) := v12_at t n

theorem v42_at (t : TL) (n : Fin 262144) : ReadP.val_main_v42 (F := Ideal) t (ix2 n 0) = t (ix2 0 n) := v12_at t n

theorem r_v15 (t : TL) (m : Fin 20) : ReadP.val_main_v15 (F := Ideal) t (ix1 m) = safe t m.val := by
  rw [ReadP.val_main_v15_apply]
  show max (ReadP.val_main_v13 (F := Ideal) t (ix1 m)) (ReadP.val_main_v14 (F := Ideal) (ix1 m)) = max (cnt t m.val) one
  rw [ReadP.val_main_v14_apply]
  refine congrArg (max · one) ?_
  unfold ReadP.val_main_v13
  refine (Cert.Reads.scatterR_apply _ _ _ m).trans ?_
  rw [ReadP.val_main_v11_apply]
  show Ideal.ofBits .f32 0x00000000#32 + _ = _
  rw [Ideal.ofBits_zero_f32, zero_add]
  unfold cnt segSum lab
  refine Finset.sum_congr rfl fun n _ => ?_
  rw [v12_at, ReadP.val_main_v10_apply]
  rfl

theorem v16_at (e : TE) (n : Fin 262144) (k : Fin 128) : ReadP.val_main_v16 (F := Ideal) e (ix2 n k) = e (ix3 0 n k) := by
  rw [ReadP.val_main_v16_apply]
  refine congrArg e (funext fun a => Fin.ext ?_)
  have hn := n.isLt
  have hk := k.isLt
  match a with
  | ⟨0, _⟩ => rfl
  | ⟨1, _⟩ => show (n.val * 128 + k.val) / 128 % 262144 = n.val; omega
  | ⟨2, _⟩ => show (n.val * 128 + k.val) % 128 = k.val; omega

theorem v21_at (t : TL) (m : Fin 20) (k : Fin 128) : ReadP.val_main_v21 (F := Ideal) t (ix2 m k) = safe t m.val := by
  rw [ReadP.val_main_v21_apply, ReadP.val_main_v20_apply]
  have hi : ReadP.idx_main_v20 (ReadP.idx_main_v21 (ix2 m k)) = ix1 m := funext fun a => Fin.ext (by
    match a with
    | ⟨0, _⟩ => rfl)
  rw [hi, r_v15]

theorem r_v22 (t : TL) (e : TE) (m : Fin 20) (k : Fin 128) :
    ReadP.val_main_v22 (F := Ideal) t e (ix2 m k) = mean t e m.val k := by
  rw [ReadP.val_main_v22_apply]
  show Ideal.div (ReadP.val_main_v19 (F := Ideal) t e (ix2 m k)) (ReadP.val_main_v21 (F := Ideal) t (ix2 m k))
    = Ideal.div (sumE t e m.val k) (safe t m.val)
  rw [v21_at]
  refine congrArg (Ideal.div · (safe t m.val)) ?_
  unfold ReadP.val_main_v19
  refine (Cert.Reads.scatterR2_apply _ _ _ m k).trans ?_
  rw [ReadP.val_main_v17_apply]
  show Ideal.ofBits .f32 0x00000000#32 + _ = _
  rw [Ideal.ofBits_zero_f32, zero_add]
  unfold sumE segSum lab
  refine Finset.sum_congr rfl fun n _ => ?_
  rw [v18_at, v16_at]

theorem v28_at (t : TL) (n : Fin 262144) (m : Fin 20) (h : lab t n = (m.val : Int)) :
    (ReadP.val_main_v28 (F := Ideal) t (ix3 0 n 0)).toInt = (m.val : Int) := by
  rw [ReadP.val_main_v28_apply]
  have hi : ReadP.idx_main_v28 (ix3 (0 : Fin 1) n (0 : Fin 1)) = ix2 0 n := funext fun a => Fin.ext (by
    match a with
    | ⟨0, _⟩ => rfl
    | ⟨1, _⟩ => rfl)
  rw [hi, ReadP.val_main_v27_apply, ReadP.val_main_v24_apply, ReadP.val_main_v23_apply]
  have hlt : IntOp.cmpi .slt (t (ix2 0 n)) (ReadP.val_main_c (F := Ideal) (ReadP.idx_main_v23 (ix2 0 n))) = 0#1 := by
    show BitVec.ofBool ((t (ix2 0 n)).slt 0#32) = 0#1
    have hf : (t (ix2 0 n)).slt 0#32 = false := by
      unfold BitVec.slt
      refine decide_eq_false ?_
      rw [show (t (ix2 0 n)).toInt = (m.val : Int) from h, BitVec.toInt_zero]
      omega
    rw [hf]; rfl
  rw [hlt, select_zero]
  exact h

theorem v29_at (t : TL) (e : TE) (n : Fin 262144) (k : Fin 128) (m : Fin 20) (h : lab t n = (m.val : Int)) :
    ReadP.val_main_v29 (F := Ideal) t e (ix3 0 n k) = mean t e m.val k := by
  unfold ReadP.val_main_v29
  exact (Cert.Reads.gatherR_apply _ _ n k m (v28_at t n m h)).trans (r_v22 t e m k)

theorem v32_at (t : TL) (e : TE) (n : Fin 262144) (m : Fin 20) (h : lab t n = (m.val : Int)) :
    ReadP.val_main_v32 (F := Ideal) t e (ix2 0 n)
      = ∑ k : Fin 128, (e (ix3 0 n k) - mean t e m.val k) * (e (ix3 0 n k) - mean t e m.val k) := by
  rw [ReadP.val_main_v32_apply]
  show Ideal.ofBits .f32 0x00000000#32 + _ = _
  rw [Ideal.ofBits_zero_f32, zero_add]
  refine Finset.sum_congr rfl fun k _ => ?_
  have hi : ReadP.idx_main_v32 (ix2 (0 : Fin 1) n) k = ix3 0 n k := funext fun a => Fin.ext (by
    match a with
    | ⟨0, _⟩ => rfl
    | ⟨1, _⟩ => rfl
    | ⟨2, _⟩ => rfl)
  rw [hi, ReadP.val_main_v31_apply, ReadP.val_main_v30_apply, v29_at t e n k m h]
  rfl

theorem v39_at (p : (⟨3, ![1, 262144, 3]⟩ : Shape).Idx → EReal) (t : TL) (e : TE) (n : Fin 262144) (m : Fin 20)
    (h : lab t n = (m.val : Int)) :
    ReadP.val_main_v39 (F := Ideal) p t e (ix2 0 n) = ppRef t (ReadP.val_main_v9 (F := Ideal) p) e m.val n := by
  rw [ReadP.val_main_v39_apply, ReadP.val_main_v38_apply, ReadP.val_main_v37_apply, ReadP.val_main_v35_apply,
    ReadP.val_main_v33_apply, v32_at t e n m h, ReadP.val_main_v34_apply, ReadP.val_main_v36_apply]
  rfl

theorem r_v44' (p : (⟨3, ![1, 262144, 3]⟩ : Shape).Idx → EReal) (t : TL) (e : TE) (m : Fin 20) :
    ReadP.val_main_v44 (F := Ideal) p t e (ix1 m)
      = Ideal.div (segSum t m.val (ppRef t (ReadP.val_main_v9 (F := Ideal) p) e m.val)) (safe t m.val) := by
  rw [ReadP.val_main_v44_apply]
  show Ideal.div (ReadP.val_main_v43 (F := Ideal) p t e (ix1 m)) (ReadP.val_main_v15 (F := Ideal) t (ix1 m)) = _
  rw [r_v15]
  refine congrArg (Ideal.div · (safe t m.val)) ?_
  unfold ReadP.val_main_v43
  refine (Cert.Reads.scatterR_apply _ _ _ m).trans ?_
  rw [ReadP.val_main_v41_apply]
  show Ideal.ofBits .f32 0x00000000#32 + _ = _
  rw [Ideal.ofBits_zero_f32, zero_add]
  unfold segSum
  refine Finset.sum_congr rfl fun n _ => ?_
  rw [v42_at]
  show (if lab t n = (m.val : Int) then _ else 0) = _
  by_cases h : lab t n = (m.val : Int)
  · rw [if_pos h, if_pos h, ReadP.val_main_v40_apply]
    have hi : ReadP.idx_main_v40 (ix1 n) = ix2 0 n := funext fun a => Fin.ext (by
      match a with
      | ⟨0, _⟩ => rfl
      | ⟨1, _⟩ => exact Nat.mod_eq_of_lt n.isLt)
    rw [hi, v39_at p t e n m h]
  · rw [if_neg h, if_neg h]

theorem r_v9 {F : FTy → Type} [FloatOps F] (p : (⟨S1x262144x3, .f32⟩ : BufTy).Contents (Elt F)) :
    ReadP.val_main_v9 (F := F) p = Cert.Tail.gS (F := F) p := by
  unfold Cert.Tail.gS ReadP.val_main_v9 ReadP.val_main_v8 ReadP.val_main_v7 ReadP.val_main_v6 ReadP.val_main_v5 ReadP.val_main_v4
    ReadP.val_main_v3 ReadP.val_main_v2 ReadP.val_main_v1 ReadP.val_main_cst ReadP.val_main_cst_0 ReadP.val_main_cst_1
  rfl

theorem r_v44 (p : (⟨3, ![1, 262144, 3]⟩ : Shape).Idx → EReal) (t : TL) (e : TE) (m : Fin 20) :
    ReadP.val_main_v44 (F := Ideal) p t e (ix1 m)
      = Ideal.div (segSum t m.val (ppRef t (Cert.Tail.gS (F := Ideal) p) e m.val)) (safe t m.val) := by
  have h := r_v44' p t e m
  rw [r_v9] at h
  exact h

abbrev AR {F : FTy → Type} [FloatOps F] (p : (⟨S1x262144x3, .f32⟩ : BufTy).Contents (Elt F)) (t : (⟨S1x262144, .i32⟩ : BufTy).Contents (Elt F))
    (e : (⟨S1x262144x128, .f32⟩ : BufTy).Contents (Elt F)) : (⟨S19, .f32⟩ : BufTy).Contents (Elt F) :=
  extractStridedSlice S19 ![1] (ReadP.val_main_v44 (F := F) p t e) slices_S20_S19_1
abbrev BR {F : FTy → Type} [FloatOps F] (t : (⟨S1x262144, .i32⟩ : BufTy).Contents (Elt F))
    (e : (⟨S1x262144x128, .f32⟩ : BufTy).Contents (Elt F)) : (⟨S19x128, .f32⟩ : BufTy).Contents (Elt F) :=
  extractStridedSlice S19x128 ![1, 0] (ReadP.val_main_v22 (F := F) t e) slices_S20x128_S19x128_1_0

theorem AR_apply {F : FTy → Type} [FloatOps F] (p : (⟨S1x262144x3, .f32⟩ : BufTy).Contents (Elt F)) (t : (⟨S1x262144, .i32⟩ : BufTy).Contents (Elt F))
    (e : (⟨S1x262144x128, .f32⟩ : BufTy).Contents (Elt F)) (j : Fin 19) :
    AR p t e (ix1 j) = ReadP.val_main_v44 (F := F) p t e (ix1 ⟨j.val + 1, by omega⟩) := by
  refine (ReadP.val_main_v45_apply (F := F) p t e (ix1 j)).trans ?_
  refine congrArg (ReadP.val_main_v44 (F := F) p t e) (funext fun a => Fin.ext ?_)
  match a with
  | ⟨0, _⟩ => exact Nat.add_comm 1 j.val

theorem BR_apply {F : FTy → Type} [FloatOps F] (t : (⟨S1x262144, .i32⟩ : BufTy).Contents (Elt F))
    (e : (⟨S1x262144x128, .f32⟩ : BufTy).Contents (Elt F)) (j : Fin 19) (k : Fin 128) :
    BR t e (ix2 j k) = ReadP.val_main_v22 (F := F) t e (ix2 ⟨j.val + 1, by omega⟩ k) := by
  refine (ReadP.val_main_v47_apply (F := F) t e (ix2 j k)).trans ?_
  refine congrArg (ReadP.val_main_v22 (F := F) t e) (funext fun a => Fin.ext ?_)
  match a with
  | ⟨0, _⟩ => exact Nat.add_comm 1 j.val
  | ⟨1, _⟩ => rfl

theorem v77_tail {F : FTy → Type} [FloatOps F] (p : (⟨S1x262144x3, .f32⟩ : BufTy).Contents (Elt F)) (t : (⟨S1x262144, .i32⟩ : BufTy).Contents (Elt F))
    (e : (⟨S1x262144x128, .f32⟩ : BufTy).Contents (Elt F)) :
    ReadP.val_main_v77 (F := F) p t e = Cert.Tail.tailT (F := F) (AR p t e) (BR t e) := by
  unfold Cert.Tail.tailT Cert.Tail.interT Cert.Tail.hingeT Cert.Tail.distT Cert.Tail.sqT Cert.Tail.rowsB Cert.Tail.colsB Cert.Tail.eyeF Cert.Tail.eyeI
    ReadP.val_main_v77 ReadP.val_main_v76 ReadP.val_main_v75 ReadP.val_main_v74 ReadP.val_main_v73 ReadP.val_main_v72
    ReadP.val_main_v71 ReadP.val_main_v70 ReadP.val_main_v69 ReadP.val_main_v68 ReadP.val_main_v67 ReadP.val_main_v66 ReadP.val_main_v65
    ReadP.val_main_v64 ReadP.val_main_v63 ReadP.val_main_call0_v1 ReadP.val_main_call0_v0 ReadP.val_main_v62 ReadP.val_main_v61
    ReadP.val_main_v60 ReadP.val_main_v59 ReadP.val_main_v58 ReadP.val_main_v57 ReadP.val_main_v56 ReadP.val_main_v55 ReadP.val_main_v54
    ReadP.val_main_v53 ReadP.val_main_v52 ReadP.val_main_v51 ReadP.val_main_v50 ReadP.val_main_v49 ReadP.val_main_v48 ReadP.val_main_v47
    ReadP.val_main_v46 ReadP.val_main_v45
    ReadP.val_main_cst_11 ReadP.val_main_cst_12 ReadP.val_main_c_13 ReadP.val_main_cst_14 ReadP.val_main_cst_15 ReadP.val_main_cst_16
    ReadP.val_main_cst_17 ReadP.val_main_cst_18 ReadP.val_main_cst_19 ReadP.val_main_cst_20 ReadP.val_main_cst_21
  rfl

theorem r_out {F : FTy → Type} [FloatOps F] (m : (ℓ : Loc nD τ sig) → Buf (Elt F) ℓ) (c : Dev nD) :
    Cert.ReferenceIdeal.ValueP.res_main_v77 m c
      = Cert.Tail.tailT (F := F)
          (AR (m ((c.tc : Thread nD τ).loc main_arg0)) (m ((c.tc : Thread nD τ).loc main_arg1)) (m ((c.tc : Thread nD τ).loc main_arg2)))
          (BR (m ((c.tc : Thread nD τ).loc main_arg1)) (m ((c.tc : Thread nD τ).loc main_arg2))) :=
  (ReadP.val_main_v77_eq m c).trans (v77_tail _ _ _)

end Cert.ReferenceIdeal.RefVal

end
-- ==== Proof.KI.KPay0.lean ====
import proofs.«416506_j31988916420713_3_alg».proof.Proof.Gen.KernelIdeal.Skeleton
import proofs.«416506_j31988916420713_3_alg».proof.Proof.Spec
import Idealize.ShloMosaic.PureOps.Ideal.Laws
import Idealize.ShloMosaic.Lib.ValueIdx
import Idealize.ShloMosaic.Lib.ValueLayout

noncomputable section

namespace Cert.KernelIdeal.Val

open Idealize.ShloMosaic Idealize.ShloMosaic.ValueIdx
open Cert.KernelIdeal Cert.KernelIdeal.Gen
open scoped BigOperators

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

theorem toInt_lane : ∀ m : Fin 128, (BitVec.ofNat 32 m.val).toInt = (m.val : Int) := by decide +kernel

theorem eq_lane_iff (w : BitVec 32) (m : Fin 128) : w = BitVec.ofNat 32 m.val ↔ w.toInt = (m.val : Int) := by
  constructor
  · rintro rfl; exact toInt_lane m
  · intro h; exact BitVec.eq_of_toInt_eq (h.trans (toInt_lane m).symm)

theorem onehot_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    rw [if_pos rfl]
    have : ((IntOp.cmpi .eq a a).setWidth 32).toInt = 1 := by
      simp [IntOp.cmpi]
    rw [this]; simp
  · rw [if_neg h]
    have hb : (a == b) = false := by simpa using h
    have : ((IntOp.cmpi .eq a b).setWidth 32).toInt = 0 := by
      simp [IntOp.cmpi, hb]
    rw [this]; simp

theorem onehot_apply (lab lane : IVec S8192x128 32) (j : S8192x128.Idx) :
    (truncf (F := Ideal) .bf16 (sitofp .f32 (extui 32 (cmpi .eq lab lane) natLt_1_32)) bitsLt_bf16_f32) j
      = if lab j = lane j then 1 else 0 :=
  onehot_word (lab j) (lane j)

theorem lhs_0 (i : S128x128.Idx) (q : dot_S8192x128_S8192x128_S128x128_0_0_1_1_n_n.contr.Idx) :
    (dot_S8192x128_S8192x128_S128x128_0_0_1_1_n_n.lhsIdx i q 0).val = (q ⟨0, by decide⟩).val :=
  dot_S8192x128_S8192x128_S128x128_0_0_1_1_n_n.lhsIdx_val_of_single rfl i q
theorem lhs_1 (i : S128x128.Idx) (q : dot_S8192x128_S8192x128_S128x128_0_0_1_1_n_n.contr.Idx) :
    (dot_S8192x128_S8192x128_S128x128_0_0_1_1_n_n.lhsIdx i q 1).val = (i 0).val := by
  unfold DotDims.lhsIdx
  rw [dif_neg (show ¬(1 : Fin S8192x128.rank) ∈ dot_S8192x128_S8192x128_S128x128_0_0_1_1_n_n.lhsBatch by decide),
    dif_pos (show (1 : Fin S8192x128.rank) ∈ dot_S8192x128_S8192x128_S128x128_0_0_1_1_n_n.lhsNonContracting by decide)]
  rfl
theorem rhs_0 (i : S128x128.Idx) (q : dot_S8192x128_S8192x128_S128x128_0_0_1_1_n_n.contr.Idx) :
    (dot_S8192x128_S8192x128_S128x128_0_0_1_1_n_n.rhsIdx i q 0).val = (q ⟨0, by decide⟩).val :=
  dot_S8192x128_S8192x128_S128x128_0_0_1_1_n_n.rhsIdx_val_of_single rfl i q
theorem rhs_1 (i : S128x128.Idx) (q : dot_S8192x128_S8192x128_S128x128_0_0_1_1_n_n.contr.Idx) :
    (dot_S8192x128_S8192x128_S128x128_0_0_1_1_n_n.rhsIdx i q 1).val = (i 1).val := by
  unfold DotDims.rhsIdx
  rw [dif_neg (show ¬(1 : Fin S8192x128.rank) ∈ dot_S8192x128_S8192x128_S128x128_0_0_1_1_n_n.rhsBatch by decide),
    dif_pos (show (1 : Fin S8192x128.rank) ∈ dot_S8192x128_S8192x128_S128x128_0_0_1_1_n_n.rhsNonContracting by decide)]
  rfl

variable (x0 : Vec Ideal S1x8192 .i32) (x1 : Vec Ideal S1x8192x128 .f32) (prev : Vec Ideal S128x128 .f32) (m k : Fin 128)

theorem pay1_apply : k0_pay1 (F := Ideal) (ix2 m k) = 0 := by
  unfold k0_pay1
  rw [shapeCast_self]
  exact Ideal.ofBits_zero_f32

theorem pay2_apply : k0_pay2 x0 x1 prev (ix2 m k)
    = prev (ix2 m k) + ∑ r : Fin 8192, if (x0 (ix2 0 r)).toInt = (m.val : Int) then x1 (ix3 0 r k) else 0 := by
  unfold k0_pay2
  rw [shapeCast_self]
  refine (addf_apply _ _ _).trans (congrArg (prev (ix2 m k) + ·) ?_)
  refine (Ideal.matmul_constant_zero_apply _ none _ _ (ix2 m k)).trans ?_
  rw [← Equiv.sum_comp (contrEquiv1 dot_S8192x128_S8192x128_S128x128_0_0_1_1_n_n 8192 rfl rfl).symm]
  refine Finset.sum_congr rfl fun r _ => ?_
  have hk := contrEquiv1_symm_val dot_S8192x128_S8192x128_S128x128_0_0_1_1_n_n 8192 rfl rfl r
  have el : dot_S8192x128_S8192x128_S128x128_0_0_1_1_n_n.lhsIdx (ix2 m k)
      ((contrEquiv1 dot_S8192x128_S8192x128_S128x128_0_0_1_1_n_n 8192 rfl rfl).symm r) = ix2 r m :=
    funext fun a => Fin.ext (by
      match a with
      | ⟨0, _⟩ => exact (lhs_0 _ _).trans hk
      | ⟨1, _⟩ => exact lhs_1 _ _)
  have er : dot_S8192x128_S8192x128_S128x128_0_0_1_1_n_n.rhsIdx (ix2 m k)
      ((contrEquiv1 dot_S8192x128_S8192x128_S128x128_0_0_1_1_n_n 8192 rfl rfl).symm r) = ix2 r k :=
    funext fun a => Fin.ext (by
      match a with
      | ⟨0, _⟩ => exact (rhs_0 _ _).trans hk
      | ⟨1, _⟩ => exact rhs_1 _ _)
  rw [el, er, onehot_apply]
  have h7 : broadcastTo S8192x128 (shapeCast S8192x1 (shapeCast S8192 x0 shapeCasts_S1x8192_S8192) shapeCasts_S8192_S8192x1)
      broadcasts_S8192x1_S8192x128 (ix2 r m) = x0 (ix2 0 r) :=
    (broadcastTo_a1_ab_apply _ _ r m).trans ((shapeCast_a_a1_apply _ _ r 0).trans (shapeCast_1a_a_apply _ _ r))
  have h8 : broadcastTo S8192x128 (iota Kind.tc S1x128 32 [1] iota_S1x128_d1_w32) broadcasts_S1x128_S8192x128 (ix2 r m)
      = BitVec.ofNat 32 m.val :=
    (broadcastTo_1b_ab_apply _ _ r m).trans (iota_single_apply _ _ _ _ _ _)
  have h14 : truncf (F := Ideal) FTy.bf16 (shapeCast S8192x128 x1 shapeCasts_S1x8192x128_S8192x128) bitsLt_bf16_f32 (ix2 r k)
      = x1 (ix3 0 r k) :=
    shapeCast_1ab_ab_apply x1 _ r k
  rw [h7, h8, h14]
  by_cases h : x0 (ix2 0 r) = BitVec.ofNat 32 m.val
  · rw [if_pos h, if_pos ((eq_lane_iff _ m).mp h), one_mul]
  · rw [if_neg h, if_neg (fun h' => h ((eq_lane_iff _ m).mpr h')), zero_mul]

theorem pay3_apply (s : Vec Ideal S128x128 .f32) (c0 : Fin 1) : k0_pay3 s (ix3 c0 m k) = s (ix2 m k) := by
  unfold k0_pay3
  exact shapeCast_ab_1ab_apply s _ c0 m k

end Cert.KernelIdeal.Val

end
-- ==== Proof.KI.R0Vals.lean ====
import proofs.«416506_j31988916420713_3_alg».proof.Proof.KI.R0Outs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg2 : Memref sig .tc .vmem S1x8192 .i32) (harg2 : arg2.IsWhole) (arg3 : Memref sig .tc .vmem S1x8192x128 .f32) (harg3 : arg3.IsWhole) (arg4 : Memref sig .tc .vmem S1x128x128 .f32) (harg4 : arg4.IsWhole) (arg5 : Memref sig .tc .vmem S128x128 .f32) (harg5 : arg5.IsWhole)

section
variable (hc0 : cond0_0 i) (hc1 : ¬cond0_1 i) (x0 : Vec F S1x8192 .i32) (x1 : Vec F S1x8192x128 .f32)

theorem sout_A :
    (rd0 (kernelRun0_A c i arg2 harg2 arg3 harg3 arg4 harg4 arg5 harg5 hc0 hc1 x0 x1)).2 = k0_pay2 x0 x1 k0_pay1 := by
  dsimp only [rd0]
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S128x128) hz2, View.readCov_unit_zero (S := S128x128) _ hz2]
  simp only [View.readAt_eq_ld, harg2.read_unread, harg3.read_unread, View.ld_unit_zero (S := S1x8192) hz2, View.ld_unit_zero (S := S1x8192x128) hz3]

end

section
variable (hc0 : ¬cond0_0 i) (hc1 : ¬cond0_1 i) (x0 : Vec F S1x8192 .i32) (x1 : Vec F S1x8192x128 .f32) (xs0 : Vec F S128x128 .f32)

theorem sout_B :
    (rd0 (kernelRun0_B c i arg2 harg2 arg3 harg3 arg4 harg4 arg5 harg5 hc0 hc1 x0 x1 xs0)).2 = k0_pay2 x0 x1 xs0 := by
  dsimp only [rd0]
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S128x128) hz2]
  simp only [View.readAt_eq_ld, harg2.read_unread, harg3.read_unread, harg5.read_unread, View.ld_unit_zero (S := S1x8192) hz2, View.ld_unit_zero (S := S1x8192x128) hz3, View.ld_unit_zero (S := S128x128) hz2]

end

section
variable (hc0 : ¬cond0_0 i) (hc1 : cond0_1 i) (x0 : Vec F S1x8192 .i32) (x1 : Vec F S1x8192x128 .f32) (xs0 : Vec F S128x128 .f32)

theorem sout_C :
    (rd0 (kernelRun0_C c i arg2 harg2 arg3 harg3 arg4 harg4 arg5 harg5 hc0 hc1 x0 x1 xs0)).2 = k0_pay2 x0 x1 xs0 := by
  dsimp only [rd0]
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S128x128) hz2]
  simp only [View.readAt_eq_ld, harg2.read_unread, harg3.read_unread, harg5.read_unread, View.ld_unit_zero (S := S1x8192) hz2, View.ld_unit_zero (S := S1x8192x128) hz3, View.ld_unit_zero (S := S128x128) hz2]

theorem out_C :
    (rd0 (kernelRun0_C c i arg2 harg2 arg3 harg3 arg4 harg4 arg5 harg5 hc0 hc1 x0 x1 xs0)).1 = k0_pay3 (k0_pay2 x0 x1 xs0) := by
  dsimp only [rd0]
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x128x128) hz3]
  simp only [View.readAt_eq_ld, harg2.read_unread, harg3.read_unread, harg5.read_unread, View.readCov_unit_zero (S := S128x128) _ hz2, View.ld_unit_zero (S := S1x8192) hz2, View.ld_unit_zero (S := S1x8192x128) hz3, View.ld_unit_zero (S := S128x128) hz2]

end

end

section Regions

variable (V : (c : Dev nD) → (b : Ref sig .tc) → Buf (Elt F) ((c : Thread nD τ).loc b))

theorem scratch0_first (c : Dev nD) (t : Fin cfg0.N) (h : t.val % 16 = 0) :
    (outsAt0 V c t.val t.isLt).2 = k0_pay2 (iblk0 V c 0 t) (iblk0 V c 1 t) k0_pay1 := by
  have h0 : t.val % 16 = 0 := h
  have h1 : ¬t.val % 16 = 15 := by omega
  rw [outsAt0_A V c t h0 h1]
  exact sout_A ..

theorem scratch0_next (c : Dev nD) (t : Fin cfg0.N) (h : t.val % 16 ≠ 0) :
    (outsAt0 V c t.val t.isLt).2
      = k0_pay2 (iblk0 V c 0 t) (iblk0 V c 1 t) (outsAt0 V c (t.val - 1) (Nat.lt_of_le_of_lt (Nat.sub_le _ _) t.isLt)).2 := by
  have h0 : ¬t.val % 16 = 0 := h
  by_cases h1 : t.val % 16 = 15
  · rw [outsAt0_C V c t h0 h1]
    exact sout_C ..
  · rw [outsAt0_B V c t h0 h1]
    exact sout_B ..

theorem out0_last (c : Dev nD) (t : Fin cfg0.N) (h : t.val % 16 = 15) :
    (outsAt0 V c t.val t.isLt).1 = k0_pay3 (outsAt0 V c t.val t.isLt).2 := by
  have h1 : t.val % 16 = 15 := h
  have h0 : ¬t.val % 16 = 0 := by omega
  rw [outsAt0_C V c t h0 h1]
  exact (out_C ..).trans (congrArg k0_pay3 (sout_C ..).symm)

end Regions

end Cert.KernelIdeal.Hand

end
-- ==== Proof.KI.KVal0.lean ====
import proofs.«416506_j31988916420713_3_alg».proof.Proof.KI.KPay0
import proofs.«416506_j31988916420713_3_alg».proof.Proof.Spec
import proofs.«416506_j31988916420713_3_alg».proof.Proof.KI.R0Data
import proofs.«416506_j31988916420713_3_alg».proof.Proof.KI.R0Vals
import Idealize.ShloMosaic.Lib.Pipeline.Value

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand Cert.Spec
open scoped BigOperators

variable (V : (c : Dev nD) → (b : Ref sig .tc) → Buf (Elt Ideal) ((c : Thread nD τ).loc b))

abbrev labArr (c : Dev nD) : TL := V c main_arg1
abbrev embArr (c : Dev nD) : TE := V c main_arg2

abbrev lblk (c : Dev nD) (t : Fin cfg0.N) : Vec Ideal S1x8192 .i32 := iblk0 V c 0 t
abbrev eblk (c : Dev nD) (t : Fin cfg0.N) : Vec Ideal S1x8192x128 .f32 := iblk0 V c 1 t

def row (n : ℕ) (h : n < 32) (r : Fin 8192) : Fin 262144 := ⟨n * 8192 + r.val, by have := r.isLt; omega⟩

theorem idx_facts : ∀ t : Fin cfg0.N, win0_0.index t (0 : Fin 2) = 0 ∧ win0_0.index t (1 : Fin 2) = t.val
    ∧ win0_1.index t (0 : Fin 3) = 0 ∧ win0_1.index t (1 : Fin 3) = t.val ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

theorem t_lt (t : Fin cfg0.N) : t.val < 32 := lt_of_lt_of_eq t.isLt N_0

theorem lblk_apply (c : Dev nD) (t : Fin cfg0.N) (r : Fin 8192) :
    lblk V c t (ix2 0 r) = labArr V c (ix2 0 (row t.val (t_lt t) r)) := by
  obtain ⟨e0, e1, -⟩ := idx_facts t
  unfold lblk iblk0
  rw [View.read_apply]
  show V c main_arg1 _ = V c main_arg1 _
  congr 1
  funext a
  apply Fin.ext
  match a with
  | ⟨0, _⟩ => show win0_0.index t (0 : Fin 2) * 1 + 1 * 0 = 0; rw [e0]
  | ⟨1, _⟩ => show win0_0.index t (1 : Fin 2) * 8192 + 1 * r.val = t.val * 8192 + r.val; rw [e1]; omega

theorem eblk_apply (c : Dev nD) (t : Fin cfg0.N) (r : Fin 8192) (k : Fin 128) :
    eblk V c t (ix3 0 r k) = embArr V c (ix3 0 (row t.val (t_lt t) r) k) := by
  obtain ⟨-, -, e0, e1, e2, -⟩ := idx_facts t
  unfold eblk iblk0
  rw [View.read_apply]
  show V c main_arg2 _ = V c main_arg2 _
  congr 1
  funext a
  apply Fin.ext
  match a with
  | ⟨0, _⟩ => show win0_1.index t (0 : Fin 3) * 1 + 1 * 0 = 0; rw [e0]
  | ⟨1, _⟩ => show win0_1.index t (1 : Fin 3) * 8192 + 1 * r.val = t.val * 8192 + r.val; rw [e1]; omega
  | ⟨2, _⟩ => show win0_1.index t (2 : Fin 3) * 128 + 1 * k.val = k.val; rw [e2]; omega

def blockSum (l : TL) (e : TE) (n : ℕ) (m k : Fin 128) : EReal :=
  if h : n < 32 then ∑ r : Fin 8192, (if lab l (row n h r) = (m.val : Int) then e (ix3 0 (row n h r) k) else 0) else 0

theorem step_apply (c : Dev nD) (t : Fin cfg0.N) (prev : Vec Ideal S128x128 .f32) (m k : Fin 128) :
    k0_pay2 (lblk V c t) (eblk V c t) prev (ix2 m k)
      = prev (ix2 m k) + blockSum (labArr V c) (embArr V c) t.val m k := by
  refine (pay2_apply (lblk V c t) (eblk V c t) prev m k).trans (congrArg (prev (ix2 m k) + ·) ?_)
  unfold blockSum
  rw [dif_pos (t_lt t)]
  refine Finset.sum_congr rfl fun r _ => ?_
  rw [lblk_apply V c t r, eblk_apply V c t r k]
  rfl

theorem first_case (c : Dev nD) (t : Fin cfg0.N) (h0 : t.val % 16 = 0) (m k : Fin 128) :
    (outsAt0 V c t.val t.isLt).2 (ix2 m k) = blockSum (labArr V c) (embArr V c) t.val m k :=
  (congrFun (scratch0_first V c t h0) (ix2 m k)).trans
    ((step_apply V c t (k0_pay1 (F := Ideal)) m k).trans (by rw [pay1_apply, zero_add]))

theorem next_case (c : Dev nD) (t : Fin cfg0.N) (h0 : t.val % 16 ≠ 0) (m k : Fin 128) :
    (outsAt0 V c t.val t.isLt).2 (ix2 m k)
      = (outsAt0 V c (t.val - 1) (Nat.lt_of_le_of_lt (Nat.sub_le _ _) t.isLt)).2 (ix2 m k)
        + blockSum (labArr V c) (embArr V c) t.val m k :=
  (congrFun (scratch0_next V c t h0) (ix2 m k)).trans (step_apply V c t _ m k)

theorem outs_congr (c : Dev nD) (a b : ℕ) (ha : a < cfg0.N) (hb : b < cfg0.N) (e : a = b) :
    outsAt0 V c a ha = outsAt0 V c b hb := by subst e; rfl

-- After grid point n the accumulator holds, per label and feature, the sum over the blocks of its half so far.
theorem scratch_eq (c : Dev nD) : ∀ (n : ℕ) (h : n < cfg0.N) (m k : Fin 128),
    (outsAt0 V c n h).2 (ix2 m k)
      = ∑ s ∈ Finset.range (n % 16 + 1), blockSum (labArr V c) (embArr V c) (n - n % 16 + s) m k := by
  intro n
  induction n with
  | zero =>
    intro h m k
    rw [first_case V c ⟨0, h⟩ rfl m k]
    simp
  | succ n ih =>
    intro h m k
    by_cases h0 : (n + 1) % 16 = 0
    · rw [first_case V c ⟨n + 1, h⟩ h0 m k, h0]
      simp
    · have hn := next_case V c ⟨n + 1, h⟩ h0 m k
      rw [outs_congr V c (n + 1 - 1) n _ (Nat.lt_of_succ_lt h) (by omega)] at hn
      rw [hn, ih (Nat.lt_of_succ_lt h) m k]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]

theorem scratch_last (c : Dev nD) (t : Fin cfg0.N) (h15 : t.val % 16 = 15) (m k : Fin 128)
    (a : Fin 2) (b d : Fin 128) (ha : a.val = t.val / 16) (hb : b.val = m.val) (hd : d.val = k.val) :
    (outsAt0 V c t.val t.isLt).2 (ix2 m k) = P0at (labArr V c) (embArr V c) a b d := by
  obtain rfl : b = m := Fin.ext hb
  obtain rfl : d = k := Fin.ext hd
  rw [scratch_eq V c t.val t.isLt b d, h15]
  show ∑ s ∈ Finset.range 16, _ = _
  rw [Finset.sum_range]
  unfold P0at
  refine Finset.sum_congr rfl fun i _ => ?_
  have ht := t_lt t
  have hi := i.isLt
  have hlt : t.val - 15 + i.val < 32 := by omega
  unfold blockSum
  rw [dif_pos hlt]
  have er : ∀ r : Fin 8192, row (t.val - 15 + i.val) hlt r = pt a i r := fun r => Fin.ext (by
    show (t.val - 15 + i.val) * 8192 + r.val = (a.val * 16 + i.val) * 8192 + r.val
    rw [ha]; omega)
  refine Finset.sum_congr rfl fun r _ => ?_
  rw [er r]

theorem flushed_eq (c : Dev nD) (t : Fin cfg0.N) (hf : (cfg0.win 2).flush t = true) :
    (dat0 V c).flushed 2 t = ((cfg0.win 2).blk t).view.read (Elt Ideal) (P0 (labArr V c) (embArr V c)) := by
  have h15 : t.val % 16 = 15 := (flush0_2 t).mp hf
  obtain ⟨-, -, -, -, -, e0, e1, e2⟩ := idx_facts t
  show (cfg0.win 2).cut (grid0.coords t) ((dat0 V c).after 2 t) = _
  rw [after0_2 V c t, out0_last V c t h15]
  funext j
  obtain ⟨p, m, k, rfl⟩ : ∃ (p : Fin 1) (m k : Fin 128), j = ix3 p m k := ⟨j 0, j 1, j 2, eq_ix3 j⟩
  rw [View.read_apply]
  show k0_pay3 (outsAt0 V c t.val t.isLt).2 (ix3 p m k) = _
  refine (pay3_apply m k (outsAt0 V c t.val t.isLt).2 p).trans ?_
  refine scratch_last V c t h15 m k _ _ _ ?_ ?_ ?_
  · show win0_2.index t (0 : Fin 3) * 1 + 1 * p.val = t.val / 16
    rw [e0]; have := p.isLt; omega
  · show win0_2.index t (1 : Fin 3) * 128 + 1 * m.val = m.val
    rw [e1]; omega
  · show win0_2.index t (2 : Fin 3) * 128 + 1 * k.val = k.val
    rw [e2]; omega

theorem mem_blk (t : Fin cfg0.N) (i : S2x128x128.Idx) :
    i ∈ ((cfg0.win 2).blk t).view.set ↔ ∀ a : Fin 3, win0_2.index t a * S1x128x128.size a ≤ (i a).val
      ∧ (i a).val < win0_2.index t a * S1x128x128.size a + S1x128x128.size a := by
  show i ∈ ((View.whole main_v0).slice (win0_2.rect t)).set ↔ _
  rw [View.set_slice_whole, Rect.mem_set_unit]
  exact Iff.rfl

theorem cover (i : S2x128x128.Idx) :
    ∃ t : Fin cfg0.N, (cfg0.win 2).flush t = true ∧ i ∈ ((cfg0.win 2).blk t).view.set := by
  have hi0 : (i 0).val < 2 := (i 0).isLt
  have hi1 : (i 1).val < 128 := (i 1).isLt
  have hi2 : (i 2).val < 128 := (i 2).isLt
  have hN : cfg0.N = 32 := N_0
  have hlt : 16 * (i 0).val + 15 < cfg0.N := by omega
  refine ⟨⟨16 * (i 0).val + 15, hlt⟩, (flush0_2 _).mpr (by show (16 * (i 0).val + 15) % 16 = 15; omega), ?_⟩
  obtain ⟨-, -, -, -, -, e0, e1, e2⟩ := idx_facts ⟨16 * (i 0).val + 15, hlt⟩
  have e0' : win0_2.index ⟨16 * (i 0).val + 15, hlt⟩ (0 : Fin 3) = (16 * (i 0).val + 15) / 16 := e0
  rw [mem_blk]
  intro a
  match a with
  | ⟨0, _⟩ =>
    show win0_2.index ⟨16 * (i 0).val + 15, hlt⟩ (0 : Fin 3) * 1 ≤ (i 0).val
      ∧ (i 0).val < win0_2.index ⟨16 * (i 0).val + 15, hlt⟩ (0 : Fin 3) * 1 + 1
    rw [e0']; omega
  | ⟨1, _⟩ =>
    show win0_2.index ⟨16 * (i 0).val + 15, hlt⟩ (1 : Fin 3) * 128 ≤ (i 1).val
      ∧ (i 1).val < win0_2.index ⟨16 * (i 0).val + 15, hlt⟩ (1 : Fin 3) * 128 + 128
    rw [e1]; omega
  | ⟨2, _⟩ =>
    show win0_2.index ⟨16 * (i 0).val + 15, hlt⟩ (2 : Fin 3) * 128 ≤ (i 2).val
      ∧ (i 2).val < win0_2.index ⟨16 * (i 0).val + 15, hlt⟩ (2 : Fin 3) * 128 + 128
    rw [e2]; omega

-- The output blocks tile the result array, so the first pass leaves the per-half sums by label.
theorem final0 (c : Dev nD) : (dat0 V c).arrAt 2 cfg0.N = Cert.Spec.P0 (V c main_arg1) (V c main_arg2) :=
  (dat0 V c).arrAt_eq_of_cover 2 (P0 (labArr V c) (embArr V c)) (flushed_eq V c) (cover)

end Cert.KernelIdeal.Val

end
-- ==== Proof.KI.R1Vals.lean ====
import proofs.«416506_j31988916420713_3_alg».proof.Proof.KI.R1Outs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem r1hz2 : (![0, 0] : Fin 2 → Nat) = fun _ => 0 := funext fun a => by fin_cases a <;> rfl
private theorem r1hz3 : (![0, 0, 0] : Fin 3 → Nat) = fun _ => 0 := funext fun a => by fin_cases a <;> rfl

section
variable (c : Dev nD) (i : grid1.Coords) (arg2 : Memref sig .tc .vmem S1x8192 .i32) (harg2 : arg2.IsWhole) (arg3 : Memref sig .tc .vmem S1x8192 .f32) (harg3 : arg3.IsWhole) (arg4 : Memref sig .tc .vmem S1x8192x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1x128 .f32) (harg7 : arg7.IsWhole) (arg8 : Memref sig .tc .vmem S1x128 .f32) (harg8 : arg8.IsWhole)

section
variable (hc0 : cond1_0 i) (hc1 : ¬cond1_1 i) (x0 : Vec F S1x8192 .i32) (x1 : Vec F S1x8192 .f32) (x2 : Vec F S1x8192x128 .f32) (x3 : Vec F S128x128 .f32) (x4 : Vec F S1x128 .f32)

theorem sout1_A :
    (rd1 (kernelRun1_A c i arg2 harg2 arg3 harg3 arg4 harg4 arg5 harg5 arg6 harg6 arg7 harg7 arg8 harg8 hc0 hc1 x0 x1 x2 x3 x4)).2 = k1_pay1 (k1_pay4 x0) (k1_pay5 x1) (k1_pay6 x0 x2 x3 x4) (Scalar.ofBits .f32 0x00000000#32) k1_pay3 := by
  dsimp only [rd1]
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1x128) r1hz2, View.readCov_unit_zero (S := S1x128) _ r1hz2]
  simp only [View.readAt_eq_ld, harg2.read_unread, harg3.read_unread, harg4.read_unread, harg5.read_unread, harg6.read_unread, View.ld_unit_zero (S := S1x8192) r1hz2, View.ld_unit_zero (S := S1x8192x128) r1hz3, View.ld_unit_zero (S := S128x128) r1hz2, View.ld_unit_zero (S := S1x128) r1hz2]

end

section
variable (hc0 : ¬cond1_0 i) (hc1 : ¬cond1_1 i) (x0 : Vec F S1x8192 .i32) (x1 : Vec F S1x8192 .f32) (x2 : Vec F S1x8192x128 .f32) (x3 : Vec F S128x128 .f32) (x4 : Vec F S1x128 .f32) (xs0 : Vec F S1x128 .f32)

theorem sout1_B :
    (rd1 (kernelRun1_B c i arg2 harg2 arg3 harg3 arg4 harg4 arg5 harg5 arg6 harg6 arg7 harg7 arg8 harg8 hc0 hc1 x0 x1 x2 x3 x4 xs0)).2 = k1_pay1 (k1_pay4 x0) (k1_pay5 x1) (k1_pay6 x0 x2 x3 x4) (Scalar.ofBits .f32 0x00000000#32) xs0 := by
  dsimp only [rd1]
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero (S := S1x128) r1hz2]
  simp only [View.readAt_eq_ld, harg2.read_unread, harg3.read_unread, harg4.read_unread, harg5.read_unread, harg6.read_unread, harg8.read_unread, View.ld_unit_zero (S := S1x8192) r1hz2, View.ld_unit_zero (S := S1x8192x128) r1hz3, View.ld_unit_zero (S := S128x128) r1hz2, View.ld_unit_zero (S := S1x128) r1hz2]

end

section
variable (hc0 : ¬cond1_0 i) (hc1 : cond1_1 i) (x0 : Vec F S1x8192 .i32) (x1 : Vec F S1x8192 .f32) (x2 : Vec F S1x8192x128 .f32) (x3 : Vec F S128x128 .f32) (x4 : Vec F S1x128 .f32) (xs0 : Vec F S1x128 .f32)

theorem sout1_C :
    (rd1 (kernelRun1_C c i arg2 harg2 arg3 harg3 arg4 harg4 arg5 harg5 arg6 harg6 arg7 harg7 arg8 harg8 hc0 hc1 x0 x1 x2 x3 x4 xs0)).2 = k1_pay1 (k1_pay4 x0) (k1_pay5 x1) (k1_pay6 x0 x2 x3 x4) (Scalar.ofBits .f32 0x00000000#32) xs0 := by
  dsimp only [rd1]
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S1x128) r1hz2]
  simp only [View.readAt_eq_ld, harg2.read_unread, harg3.read_unread, harg4.read_unread, harg5.read_unread, harg6.read_unread, harg8.read_unread, View.ld_unit_zero (S := S1x8192) r1hz2, View.ld_unit_zero (S := S1x8192x128) r1hz3, View.ld_unit_zero (S := S128x128) r1hz2, View.ld_unit_zero (S := S1x128) r1hz2]

theorem out1_C :
    (rd1 (kernelRun1_C c i arg2 harg2 arg3 harg3 arg4 harg4 arg5 harg5 arg6 harg6 arg7 harg7 arg8 harg8 hc0 hc1 x0 x1 x2 x3 x4 xs0)).1 = k1_pay2 (k1_pay1 (k1_pay4 x0) (k1_pay5 x1) (k1_pay6 x0 x2 x3 x4) (Scalar.ofBits .f32 0x00000000#32) xs0) := by
  dsimp only [rd1]
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S1x1x128) r1hz3]
  simp only [View.readAt_eq_ld, harg2.read_unread, harg3.read_unread, harg4.read_unread, harg5.read_unread, harg6.read_unread, harg8.read_unread, View.readCov_unit_zero (S := S1x128) _ r1hz2, View.ld_unit_zero (S := S1x8192) r1hz2, View.ld_unit_zero (S := S1x8192x128) r1hz3, View.ld_unit_zero (S := S128x128) r1hz2, View.ld_unit_zero (S := S1x128) r1hz2]

end

end

section Entry

variable (V : (c : Dev nD) → (b : Ref sig .tc) → Buf (Elt F) ((c : Thread nD τ).loc b))

theorem scratch1_first (c : Dev nD) (t : Fin cfg1.N) (h : t.val % 16 = 0) :
    (outsAt1 V c t.val t.isLt).2 = k1_pay1 (k1_pay4 (iblk1 V c 0 t)) (k1_pay5 (iblk1 V c 1 t)) (k1_pay6 (iblk1 V c 0 t) (iblk1 V c 2 t) (iblk1 V c 3 t) (iblk1 V c 4 t)) (Scalar.ofBits .f32 0x00000000#32) k1_pay3 := by
  have h0 : t.val % 16 = 0 := h
  have h1 : ¬t.val % 16 = 15 := by omega
  rw [outsAt1_A V c t h0 h1]
  exact sout1_A ..

theorem scratch1_next (c : Dev nD) (t : Fin cfg1.N) (h : t.val % 16 ≠ 0) :
    (outsAt1 V c t.val t.isLt).2
      = k1_pay1 (k1_pay4 (iblk1 V c 0 t)) (k1_pay5 (iblk1 V c 1 t)) (k1_pay6 (iblk1 V c 0 t) (iblk1 V c 2 t) (iblk1 V c 3 t) (iblk1 V c 4 t)) (Scalar.ofBits .f32 0x00000000#32) (outsAt1 V c (t.val - 1) (Nat.lt_of_le_of_lt (Nat.sub_le _ _) t.isLt)).2 := by
  have h0 : ¬t.val % 16 = 0 := h
  by_cases h1 : t.val % 16 = 15
  · rw [outsAt1_C V c t h0 h1]
    exact sout1_C ..
  · rw [outsAt1_B V c t h0 h1]
    exact sout1_B ..

theorem out1_last (c : Dev nD) (t : Fin cfg1.N) (h : t.val % 16 = 15) :
    (outsAt1 V c t.val t.isLt).1 = k1_pay2 (outsAt1 V c t.val t.isLt).2 := by
  have h1 : t.val % 16 = 15 := h
  have h0 : ¬t.val % 16 = 0 := by omega
  rw [outsAt1_C V c t h0 h1]
  exact (out1_C ..).trans (congrArg k1_pay2 (sout1_C ..).symm)

end Entry

end Cert.KernelIdeal.Hand

end
-- ==== Proof.KI.KPay1.lean ====
import proofs.«416506_j31988916420713_3_alg».proof.Proof.Gen.KernelIdeal.Skeleton
import proofs.«416506_j31988916420713_3_alg».proof.Proof.Spec
import proofs.«416506_j31988916420713_3_alg».proof.Proof.KI.KPay0
import Idealize.ShloMosaic.PureOps.Ideal.Laws
import Idealize.ShloMosaic.Lib.ValueLayout

noncomputable section

namespace Cert.KernelIdeal.Val.K1

open Cert.KernelIdeal Cert.KernelIdeal.Gen Cert.Spec
open Idealize.ShloMosaic Idealize.ShloMosaic.ValueIdx
open scoped BigOperators

theorem pay3_apply (m : Fin 128) : k1_pay3 (F := Ideal) (ix2 0 m) = 0 := by
  unfold k1_pay3
  rw [shapeCast_self]
  exact Ideal.ofBits_zero_f32

theorem pay5_apply (xg : Vec Ideal S1x8192 .f32) (r : Fin 8192) : k1_pay5 xg (ix1 r) = xg (ix2 0 r) := by
  unfold k1_pay5
  exact shapeCast_1a_a_apply xg _ r

theorem pay2_apply (s : Vec Ideal S1x128 .f32) (c0 c1 : Fin 1) (m : Fin 128) : k1_pay2 s (ix3 c0 c1 m) = s (ix2 0 m) := by
  obtain rfl : c1 = 0 := Subsingleton.elim _ _
  unfold k1_pay2
  exact shapeCast_ab_1ab_apply s _ c0 0 m

theorem pay4_word (x0 : Vec Ideal S1x8192 .i32) (r : Fin 8192) (m : Fin 128) :
    k1_pay4 (F := Ideal) x0 (ix2 r m) = IntOp.cmpi .eq (x0 (ix2 0 r)) (BitVec.ofNat 32 m.val) := by
  unfold k1_pay4
  show IntOp.cmpi .eq (broadcastTo S8192x128 _ _ (ix2 r m)) (broadcastTo S8192x128 _ _ (ix2 r m)) = _
  rw [broadcastTo_a1_ab_apply, shapeCast_a_a1_apply, shapeCast_1a_a_apply, broadcastTo_1b_ab_apply, iota_single_apply]

theorem pay4_apply (x0 : Vec Ideal S1x8192 .i32) (r : Fin 8192) (m : Fin 128) :
    k1_pay4 (F := Ideal) x0 (ix2 r m) = (if (x0 (ix2 0 r)).toInt = (m.val : Int) then 1#1 else 0#1) := by
  rw [pay4_word]
  unfold IntOp.cmpi
  by_cases h : (x0 (ix2 0 r)).toInt = (m.val : Int)
  · rw [if_pos h, (eq_lane_iff _ m).mpr h, beq_self_eq_true]; rfl
  · rw [if_neg h]
    have hne : ¬ x0 (ix2 0 r) = BitVec.ofNat 32 m.val := fun e => h ((eq_lane_iff _ m).mp e)
    rw [beq_eq_false_iff_ne.mpr hne]; rfl

theorem select_pay4 {α : Type} (x0 : Vec Ideal S1x8192 .i32) (r : Fin 8192) (m : Fin 128) (a b : α) :
    Scalar.select (k1_pay4 (F := Ideal) x0 (ix2 r m)) a b = if (x0 (ix2 0 r)).toInt = (m.val : Int) then a else b := by
  rw [pay4_apply]
  split
  · exact select_one a b
  · exact select_zero a b

theorem lift_row (h : S8192x128.Reduces [1] S8192) (r : Fin 8192) (k : Fin 128) : h.lift (ix1 r) k = ix2 r k := by
  funext c
  match c with
  | ⟨0, _⟩ => exact Fin.ext rfl
  | ⟨1, _⟩ => exact Fin.ext rfl

theorem lift_col (h : S8192x128.Reduces [0] S128) (m : Fin 128) (r : Fin 8192) : h.lift (ix1 m) r = ix2 r m := by
  funext c
  match c with
  | ⟨0, _⟩ => exact Fin.ext rfl
  | ⟨1, _⟩ => exact Fin.ext rfl

theorem rowSum_apply (src : FVec Ideal S8192x128 .f32) (hφ : FKind.Formats .f32)
    (hacc : (0x00000000#32 : BitVec 32) = 0x00000000#32) (r : Fin 8192) :
    multiReduction .add [1] S8192 src 0x00000000#32 reduces_S8192x128_S8192 hφ hacc (ix1 r)
      = ∑ k : Fin 128, src (ix2 r k) := by
  refine (Ideal.multiReduction_add_single src _ reduces_S8192x128_S8192 hφ hacc (ix1 r)).trans ?_
  exact Finset.sum_congr rfl fun k _ => congrArg src (lift_row _ r k)

theorem colSum_apply (src : FVec Ideal S8192x128 .f32) (hφ : FKind.Formats .f32)
    (hacc : (0x00000000#32 : BitVec 32) = 0x00000000#32) (m : Fin 128) :
    multiReduction .add [0] S128 src 0x00000000#32 reduces_S8192x128_S128 hφ hacc (ix1 m)
      = ∑ r : Fin 8192, src (ix2 r m) := by
  refine (Ideal.multiReduction_add_single src _ reduces_S8192x128_S128 hφ hacc (ix1 m)).trans ?_
  exact Finset.sum_congr rfl fun r _ => congrArg src (lift_col _ m r)

theorem dot_apply (A : FVec Ideal S8192x128 .bf16) (B : FVec Ideal S128x128 .bf16) (r : Fin 8192) (m : Fin 128) :
    matmul dot_S8192x128_S128x128_S8192x128_1_1_0_0_n_n none A B (constant (F := Ideal) S8192x128 .f32 0x00000000#32) (ix2 r m)
      = ∑ k : Fin 128, A (ix2 r k) * B (ix2 m k) := by
  show FloatOps.matmul _ none A B _ (ix2 r m) = _
  rw [Ideal.matmul_constant_zero_apply,
    ← Equiv.sum_comp (contrEquiv1 dot_S8192x128_S128x128_S8192x128_1_1_0_0_n_n 128 rfl rfl).symm]
  refine Finset.sum_congr rfl fun c _ => ?_
  have c2 := contrEquiv1_symm_val dot_S8192x128_S128x128_S8192x128_1_1_0_0_n_n 128 rfl rfl c
  have l2 : dot_S8192x128_S128x128_S8192x128_1_1_0_0_n_n.lhsIdx (ix2 r m) ((contrEquiv1 _ 128 rfl rfl).symm c) = ix2 r c := by
    funext ax; apply Fin.ext
    match ax with
    | ⟨0, _⟩ => simp [DotDims.lhsIdx, dot_S8192x128_S128x128_S8192x128_1_1_0_0_n_n]; rfl
    | ⟨1, _⟩ => simp [DotDims.lhsIdx, dot_S8192x128_S128x128_S8192x128_1_1_0_0_n_n]; exact c2
  have r2 : dot_S8192x128_S128x128_S8192x128_1_1_0_0_n_n.rhsIdx (ix2 r m) ((contrEquiv1 _ 128 rfl rfl).symm c) = ix2 m c := by
    funext ax; apply Fin.ext
    match ax with
    | ⟨0, _⟩ => simp [DotDims.rhsIdx, dot_S8192x128_S128x128_S8192x128_1_1_0_0_n_n]; rfl
    | ⟨1, _⟩ => simp [DotDims.rhsIdx, dot_S8192x128_S128x128_S8192x128_1_1_0_0_n_n]; exact c2
  rw [l2, r2]

theorem sqrt_apply {s : Shape} {φ : FTy} (a : FVec Ideal s φ) (i : s.Idx) : sqrt a i = Ideal.sqrt (a i) := rfl

theorem scalar_ofBits (b : BitVec 32) : Scalar.ofBits (F := Ideal) .f32 b = Ideal.ofBits .f32 b := rfl

def distB (x0 : Vec Ideal S1x8192 .i32) (xe : Vec Ideal S1x8192x128 .f32) (mu : Vec Ideal S128x128 .f32)
    (msq : Vec Ideal S1x128 .f32) (r : Fin 8192) : EReal :=
  Ideal.sqrt (max ((∑ k : Fin 128, xe (ix3 0 r k) * xe (ix3 0 r k))
    + ∑ m : Fin 128, if (x0 (ix2 0 r)).toInt = (m.val : Int)
        then msq (ix2 0 m) - Cert.Spec.two * (∑ k : Fin 128, xe (ix3 0 r k) * mu (ix2 m k)) else 0) Cert.Spec.z0)

theorem pay6_apply (x0 : Vec Ideal S1x8192 .i32) (xe : Vec Ideal S1x8192x128 .f32) (mu : Vec Ideal S128x128 .f32)
    (msq : Vec Ideal S1x128 .f32) (r : Fin 8192) :
    k1_pay6 x0 xe mu msq (ix1 r) = distB x0 xe mu msq r - Cert.Spec.margin := by
  unfold k1_pay6 distB
  simp only [subf_apply, addf_apply, maximumf_apply, sqrt_apply, broadcast_apply, scalar_ofBits]
  rw [rowSum_apply, rowSum_apply]
  simp only [subf_apply, mulf_apply, broadcast_apply, select_apply, dot_apply, truncf_apply, shapeCast_self,
    shapeCast_1ab_ab_apply, broadcastTo_1b_ab_apply, select_pay4, scalar_ofBits]
  simp only [Cert.Spec.z0, Cert.Spec.two, Cert.Spec.margin, Ideal.ofBits_zero_f32]

theorem pay1_apply (x0 : Vec Ideal S1x8192 .i32) (xg : Vec Ideal S1x8192 .f32) (xe : Vec Ideal S1x8192x128 .f32)
    (mu : Vec Ideal S128x128 .f32) (msq : Vec Ideal S1x128 .f32) (prev : Vec Ideal S1x128 .f32) (m : Fin 128) :
    k1_pay1 (k1_pay4 x0) (k1_pay5 xg) (k1_pay6 x0 xe mu msq) (Scalar.ofBits .f32 0x00000000#32) prev (ix2 0 m)
      = prev (ix2 0 m) + ∑ r : Fin 8192, if (x0 (ix2 0 r)).toInt = (m.val : Int)
          then xg (ix2 0 r) * (max (distB x0 xe mu msq r - Cert.Spec.margin) Cert.Spec.z0
            * max (distB x0 xe mu msq r - Cert.Spec.margin) Cert.Spec.z0) else 0 := by
  unfold k1_pay1
  simp only [shapeCast_self, addf_apply, shapeCast_a_1a_apply]
  rw [colSum_apply]
  simp only [select_apply, select_pay4, broadcast_apply, broadcastTo_a1_ab_apply, shapeCast_a_a1_apply, mulf_apply,
    maximumf_apply, pay5_apply, pay6_apply, scalar_ofBits]
  refine congrArg (prev (ix2 0 m) + ·) (Finset.sum_congr rfl fun r _ => ?_)
  by_cases h : (x0 (ix2 0 r)).toInt = (m.val : Int)
  · exact (if_pos h).trans (if_pos h).symm
  · exact (if_neg h).trans (Ideal.ofBits_zero_f32.trans (if_neg h).symm)

end Cert.KernelIdeal.Val.K1

end
-- ==== Proof.KI.KVal1.lean ====
import proofs.«416506_j31988916420713_3_alg».proof.Proof.Spec
import proofs.«416506_j31988916420713_3_alg».proof.Proof.KI.R1Data
import proofs.«416506_j31988916420713_3_alg».proof.Proof.KI.R1Vals
import proofs.«416506_j31988916420713_3_alg».proof.Proof.KI.KPay1
import Idealize.ShloMosaic.Lib.Pipeline.Value
import Idealize.ShloMosaic.Lib.ValueIdx

noncomputable section

namespace Cert.KernelIdeal.Val.V1

open Cert.KernelIdeal Cert.KernelIdeal.Gen Cert.KernelIdeal.Hand Cert.Spec Cert.KernelIdeal.Val.K1
open Idealize.ShloMosaic Idealize.ShloMosaic.TcCoe Idealize.ShloMosaic.ValueIdx Idealize.SL.Sem
open Idealize.ShloMosaic.Pipeline (Dat)
open scoped BigOperators

abbrev VT (F : FTy → Type) : Type := (c : Dev nD) → (b : Ref sig .tc) → Buf (Elt F) ((c : Thread nD τ).loc b)

def half (t : Fin cfg1.N) : Fin 2 := ⟨t.val / 16, by have := t.isLt; have h : cfg1.N = 32 := N_1; omega⟩
def blkno (t : Fin cfg1.N) : Fin 16 := ⟨t.val % 16, by omega⟩

theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 3) = 0 ∧ win1_2.index t (1 : Fin 3) = t.val ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 16 ∧ win1_5.index t (1 : Fin 3) = 0 ∧ win1_5.index t (2 : Fin 3) = 0 :=
  (by decide +kernel : ∀ t : Fin grid1.N, _)

section Blocks

variable (V : VT Ideal) (c : Dev nD)

abbrev labA : Vec Ideal S1x262144 .i32 := V c main_arg1
abbrev wgtA : Vec Ideal S1x262144 .f32 := V c main_v22
abbrev embA : Vec Ideal S1x262144x128 .f32 := V c main_arg2
abbrev muA : Vec Ideal S128x128 .f32 := V c main_v11
abbrev msqA : Vec Ideal S1x128 .f32 := V c main_v23
abbrev labB (t : Fin cfg1.N) : Vec Ideal S1x8192 .i32 := iblk1 V c 0 t
abbrev wgtB (t : Fin cfg1.N) : Vec Ideal S1x8192 .f32 := iblk1 V c 1 t
abbrev embB (t : Fin cfg1.N) : Vec Ideal S1x8192x128 .f32 := iblk1 V c 2 t
abbrev muB (t : Fin cfg1.N) : Vec Ideal S128x128 .f32 := iblk1 V c 3 t
abbrev msqB (t : Fin cfg1.N) : Vec Ideal S1x128 .f32 := iblk1 V c 4 t

theorem labB_apply (t : Fin cfg1.N) (r : Fin 8192) :
    labB V c t (ix2 0 r) = labA V c (ix2 0 (pt (half t) (blkno t) r)) := by
  obtain ⟨e0, e1, -⟩ := idx_facts t
  show ((cfg1.win 0).blk t).view.read (Elt Ideal) (V c (Pipeline.arrRef spec1 0)) (ix2 0 r) = _
  rw [View.read_apply]
  show V c main_arg1 (((cfg1.win 0).blk t).view.emb (ix2 0 r)) = V c main_arg1 _
  congr 1
  funext a
  apply Fin.ext
  match a with
  | ⟨0, _⟩ => show win1_0.index t (0 : Fin 2) * 1 + 1 * 0 = 0; omega
  | ⟨1, _⟩ => show win1_0.index t (1 : Fin 2) * 8192 + 1 * r.val = (t.val / 16 * 16 + t.val % 16) * 8192 + r.val; omega

theorem wgtB_apply (t : Fin cfg1.N) (r : Fin 8192) :
    wgtB V c t (ix2 0 r) = wgtA V c (ix2 0 (pt (half t) (blkno t) r)) := by
  obtain ⟨-, -, e0, e1, -⟩ := idx_facts t
  show ((cfg1.win 1).blk t).view.read (Elt Ideal) (V c (Pipeline.arrRef spec1 1)) (ix2 0 r) = _
  rw [View.read_apply]
  show V c main_v22 (((cfg1.win 1).blk t).view.emb (ix2 0 r)) = V c main_v22 _
  congr 1
  funext a
  apply Fin.ext
  match a with
  | ⟨0, _⟩ => show win1_1.index t (0 : Fin 2) * 1 + 1 * 0 = 0; omega
  | ⟨1, _⟩ => show win1_1.index t (1 : Fin 2) * 8192 + 1 * r.val = (t.val / 16 * 16 + t.val % 16) * 8192 + r.val; omega

theorem embB_apply (t : Fin cfg1.N) (r : Fin 8192) (k : Fin 128) :
    embB V c t (ix3 0 r k) = embA V c (ix3 0 (pt (half t) (blkno t) r) k) := by
  obtain ⟨-, -, -, -, e0, e1, e2, -⟩ := idx_facts t
  show ((cfg1.win 2).blk t).view.read (Elt Ideal) (V c (Pipeline.arrRef spec1 2)) (ix3 0 r k) = _
  rw [View.read_apply]
  show V c main_arg2 (((cfg1.win 2).blk t).view.emb (ix3 0 r k)) = V c main_arg2 _
  congr 1
  funext a
  apply Fin.ext
  match a with
  | ⟨0, _⟩ => show win1_2.index t (0 : Fin 3) * 1 + 1 * 0 = 0; omega
  | ⟨1, _⟩ => show win1_2.index t (1 : Fin 3) * 8192 + 1 * r.val = (t.val / 16 * 16 + t.val % 16) * 8192 + r.val; omega
  | ⟨2, _⟩ => show win1_2.index t (2 : Fin 3) * 128 + 1 * k.val = k.val; omega

theorem muB_eq (t : Fin cfg1.N) : muB V c t = muA V c := by
  obtain ⟨-, -, -, -, -, -, -, e0, e1, -⟩ := idx_facts t
  funext j
  show ((cfg1.win 3).blk t).view.read (Elt Ideal) (V c (Pipeline.arrRef spec1 3)) j = _
  rw [View.read_apply]
  show V c main_v11 (((cfg1.win 3).blk t).view.emb j) = V c main_v11 j
  congr 1
  funext a
  apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

theorem msqB_eq (t : Fin cfg1.N) : msqB V c t = msqA V c := by
  obtain ⟨-, -, -, -, -, -, -, -, -, e0, e1, -⟩ := idx_facts t
  funext j
  show ((cfg1.win 4).blk t).view.read (Elt Ideal) (V c (Pipeline.arrRef spec1 4)) j = _
  rw [View.read_apply]
  show V c main_v23 (((cfg1.win 4).blk t).view.emb j) = V c main_v23 j
  congr 1
  funext a
  apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

end Blocks

theorem distB_eq (x0 : Vec Ideal S1x8192 .i32) (xe : Vec Ideal S1x8192x128 .f32) (mu : Vec Ideal S128x128 .f32)
    (msq : Vec Ideal S1x128 .f32) (L : TL) (E : TE) (p : Fin 8192 → Fin 262144)
    (h0 : ∀ r, x0 (ix2 0 r) = L (ix2 0 (p r))) (he : ∀ r k, xe (ix3 0 r k) = E (ix3 0 (p r) k)) (r : Fin 8192) :
    distB x0 xe mu msq r = dist L E mu msq (p r) := by
  unfold distB Cert.Spec.dist normSq pick dotAt lab
  simp only [h0, he]

def blkSum (L : TL) (G : TG) (E : TE) (mu : TM) (msq : TQ) (c' : Fin 2) (m : Fin 128) (i : ℕ) : EReal :=
  if h : i < 16 then ∑ r : Fin 8192, if lab L (pt c' ⟨i, h⟩ r) = (m.val : Int) then pp L G E mu msq (pt c' ⟨i, h⟩ r) else 0 else 0

theorem step_apply (x0 : Vec Ideal S1x8192 .i32) (xg : Vec Ideal S1x8192 .f32) (xe : Vec Ideal S1x8192x128 .f32)
    (mu : Vec Ideal S128x128 .f32) (msq : Vec Ideal S1x128 .f32) (prev : Vec Ideal S1x128 .f32)
    (L : TL) (G : TG) (E : TE) (p : Fin 8192 → Fin 262144)
    (h0 : ∀ r, x0 (ix2 0 r) = L (ix2 0 (p r))) (hg : ∀ r, xg (ix2 0 r) = G (ix2 0 (p r)))
    (he : ∀ r k, xe (ix3 0 r k) = E (ix3 0 (p r) k)) (m : Fin 128) :
    k1_pay1 (k1_pay4 x0) (k1_pay5 xg) (k1_pay6 x0 xe mu msq) (Scalar.ofBits .f32 0x00000000#32) prev (ix2 0 m)
      = prev (ix2 0 m) + ∑ r : Fin 8192, if lab L (p r) = (m.val : Int) then pp L G E mu msq (p r) else 0 := by
  rw [K1.pay1_apply]
  congr 1
  refine Finset.sum_congr rfl fun r _ => ?_
  rw [distB_eq x0 xe mu msq L E p h0 he r, h0 r, hg r]
  rfl

section Run

variable (V : VT Ideal) (c : Dev nD)

theorem point_step (t : Fin cfg1.N) (prev : Vec Ideal S1x128 .f32) (m : Fin 128) :
    k1_pay1 (k1_pay4 (labB V c t)) (k1_pay5 (wgtB V c t)) (k1_pay6 (labB V c t) (embB V c t) (muB V c t) (msqB V c t))
        (Scalar.ofBits .f32 0x00000000#32) prev (ix2 0 m)
      = prev (ix2 0 m) + blkSum (labA V c) (wgtA V c) (embA V c) (muA V c) (msqA V c) (half t) m (t.val % 16) := by
  refine (step_apply (labB V c t) (wgtB V c t) (embB V c t) (muB V c t) (msqB V c t) prev (labA V c) (wgtA V c) (embA V c)
    (fun r => pt (half t) (blkno t) r) (labB_apply V c t) (wgtB_apply V c t) (embB_apply V c t) m).trans ?_
  rw [muB_eq, msqB_eq]
  congr 1
  unfold blkSum
  rw [dif_pos (by omega : t.val % 16 < 16)]
  rfl

-- After grid point n the accumulator holds, per label, the sum of the per-point losses over the blocks of its half so far.
theorem scratch_eq : ∀ (n : ℕ) (h : n < cfg1.N) (m : Fin 128),
    (outsAt1 V c n h).2 (ix2 0 m)
      = ∑ i ∈ Finset.range (n % 16 + 1), blkSum (labA V c) (wgtA V c) (embA V c) (muA V c) (msqA V c) (half ⟨n, h⟩) m i
  | 0, h, m => by
    refine (congrFun (scratch1_first V c ⟨0, h⟩ rfl) (ix2 0 m)).trans ?_
    refine (point_step V c ⟨0, h⟩ (k1_pay3 (F := Ideal)) m).trans ?_
    rw [K1.pay3_apply, zero_add]
    show _ = ∑ i ∈ Finset.range 1, _
    rw [Finset.sum_range_one]
    rfl
  | n + 1, h, m => by
    have hN : cfg1.N = 32 := N_1
    by_cases hz : (n + 1) % 16 = 0
    · refine (congrFun (scratch1_first V c ⟨n + 1, h⟩ hz) (ix2 0 m)).trans ?_
      refine (point_step V c ⟨n + 1, h⟩ (k1_pay3 (F := Ideal)) m).trans ?_
      rw [K1.pay3_apply, zero_add]
      show blkSum _ _ _ _ _ _ m ((n + 1) % 16) = _
      rw [hz, Finset.sum_range_one]
    · refine (congrFun (scratch1_next V c ⟨n + 1, h⟩ hz) (ix2 0 m)).trans ?_
      refine (point_step V c ⟨n + 1, h⟩ _ m).trans ?_
      show (outsAt1 V c n (by omega)).2 (ix2 0 m) + blkSum _ _ _ _ _ _ m ((n + 1) % 16) = _
      rw [scratch_eq n (by omega) m]
      have e1 : (n + 1) % 16 = n % 16 + 1 := by omega
      have e2 : half ⟨n + 1, h⟩ = half ⟨n, by omega⟩ := Fin.ext (by show (n + 1) / 16 = n / 16; omega)
      rw [e1, e2, Finset.sum_range_succ _ (n % 16 + 1)]

theorem out_apply (t : Fin cfg1.N) (h15 : t.val % 16 = 15) (c0 c1 : Fin 1) (m : Fin 128) :
    (outsAt1 V c t.val t.isLt).1 (ix3 c0 c1 m)
      = P1at (labA V c) (wgtA V c) (embA V c) (muA V c) (msqA V c) (half t) m := by
  refine (congrFun (out1_last V c t h15) (ix3 c0 c1 m)).trans ?_
  rw [K1.pay2_apply, scratch_eq V c t.val t.isLt m, h15]
  refine (Fin.sum_univ_eq_sum_range (fun i => blkSum (labA V c) (wgtA V c) (embA V c) (muA V c) (msqA V c) (half t) m i) 16).symm.trans ?_
  unfold P1at
  refine Finset.sum_congr rfl fun i _ => ?_
  unfold blkSum
  rw [dif_pos i.isLt]

theorem flushed_eq (t : Fin cfg1.N) (hf : (cfg1.win 5).flush t = true) :
    (dat1 V c).flushed 5 t
      = ((cfg1.win 5).blk t).view.read (Elt Ideal) (P1 (labA V c) (wgtA V c) (embA V c) (muA V c) (msqA V c)) := by
  have h15 : t.val % 16 = 15 := (flush1_5 t).mp hf
  obtain ⟨-, -, -, -, -, -, -, -, -, -, -, e0, e1, e2⟩ := idx_facts t
  show (cfg1.win 5).cut (grid1.coords t) ((dat1 V c).after 5 t) = _
  rw [after1_out]
  funext j
  obtain ⟨a, b, m, rfl⟩ : ∃ (a : Fin 1) (b : Fin 1) (m : Fin 128), j = ix3 a b m := ⟨j 0, j 1, j 2, eq_ix3 j⟩
  rw [View.read_apply]
  have hx : (cfg1.win 5).xinj (grid1.coords t) (ix3 a b m) = ix3 a b m :=
    funext fun d => by match d with | ⟨0, _⟩ => rfl | ⟨1, _⟩ => rfl | ⟨2, _⟩ => rfl
  show (outsAt1 V c t.val t.isLt).1 ((cfg1.win 5).xinj (grid1.coords t) (ix3 a b m)) = _
  rw [hx]
  refine (out_apply V c t h15 a b m).trans ?_
  show P1at _ _ _ _ _ (half t) m
    = P1at _ _ _ _ _ ((((cfg1.win 5).blk t).view.emb (ix3 a b m)) 0) ((((cfg1.win 5).blk t).view.emb (ix3 a b m)) 2)
  congr 1
  · exact Fin.ext (by show t.val / 16 = win1_5.index t (0 : Fin 3) * 1 + 1 * a.val; have := a.isLt; omega)
  · exact Fin.ext (by show m.val = win1_5.index t (2 : Fin 3) * 128 + 1 * m.val; omega)

theorem final1 : (dat1 V c).arrAt 5 cfg1.N
    = Cert.Spec.P1 (V c main_arg1) (V c main_v22) (V c main_arg2) (V c main_v11) (V c main_v23) :=
  (dat1 V c).arrAt_eq_of_cover 5 (P1 (labA V c) (wgtA V c) (embA V c) (muA V c) (msqA V c)) (flushed_eq V c) fun i => by
    have hN : cfg1.N = 32 := N_1
    have hi0 : (i 0).val < 2 := (i 0).isLt
    have hi1 : (i 1).val < 1 := (i 1).isLt
    have hi2 : (i 2).val < 128 := (i 2).isLt
    have ht : 16 * (i 0).val + 15 < cfg1.N := by omega
    obtain ⟨-, -, -, -, -, -, -, -, -, -, -, e0, e1, e2⟩ := idx_facts ⟨16 * (i 0).val + 15, ht⟩
    refine ⟨⟨16 * (i 0).val + 15, ht⟩, (flush1_5 _).mpr (by show (16 * (i 0).val + 15) % 16 = 15; omega), ?_⟩
    show i ∈ ((View.whole main_v24).slice (win1_5.rect ⟨16 * (i 0).val + 15, ht⟩)).set
    rw [View.set_slice_whole, Rect.mem_set_unit]
    intro a
    have hv : (⟨16 * (i 0).val + 15, ht⟩ : Fin cfg1.N).val = 16 * (i 0).val + 15 := rfl
    match a with
    | ⟨0, _⟩ =>
      show win1_5.index ⟨16 * (i 0).val + 15, ht⟩ (0 : Fin 3) * 1 ≤ (i 0).val
        ∧ (i 0).val < win1_5.index ⟨16 * (i 0).val + 15, ht⟩ (0 : Fin 3) * 1 + 1
      omega
    | ⟨1, _⟩ =>
      show win1_5.index ⟨16 * (i 0).val + 15, ht⟩ (1 : Fin 3) * 1 ≤ (i 1).val
        ∧ (i 1).val < win1_5.index ⟨16 * (i 0).val + 15, ht⟩ (1 : Fin 3) * 1 + 1
      omega
    | ⟨2, _⟩ =>
      show win1_5.index ⟨16 * (i 0).val + 15, ht⟩ (2 : Fin 3) * 128 ≤ (i 2).val
        ∧ (i 2).val < win1_5.index ⟨16 * (i 0).val + 15, ht⟩ (2 : Fin 3) * 128 + 128
      omega

end Run

end Cert.KernelIdeal.Val.V1

namespace Cert.KernelIdeal.Val

open Cert.KernelIdeal Cert.KernelIdeal.Hand
open Idealize.ShloMosaic Idealize.ShloMosaic.TcCoe Idealize.SL.Sem

theorem final1 (V : (c : Dev nD) → (b : Ref sig .tc) → Buf (Elt Ideal) ((c : Thread nD τ).loc b)) (c : Dev nD) :
    (dat1 V c).arrAt 5 cfg1.N
      = Cert.Spec.P1 (V c main_arg1) (V c main_v22) (V c main_arg2) (V c main_v11) (V c main_v23) :=
  V1.final1 V c

end Cert.KernelIdeal.Val

end
-- ==== Proof.KI.KHost.lean ====
import proofs.«416506_j31988916420713_3_alg».proof.Proof.Gen.KernelIdeal.Regions
import proofs.«416506_j31988916420713_3_alg».proof.Proof.Tail
import proofs.«416506_j31988916420713_3_alg».proof.Proof.Spec
import proofs.«416506_j31988916420713_3_alg».proof.Proof.Reads
import Idealize.ShloMosaic.Lib.StableHlo.Run
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx
open scoped BigOperators

theorem bcast_const_apply {t : Shape} (h : S_.BroadcastsInDim t (![] : Fin 0 → Fin t.rank)) (b : BitVec 32) (j : t.Idx) :
    broadcastInDim t ![] h (constant (F := Ideal) S_ .f32 b) j = Ideal.ofBits .f32 b := rfl

theorem z0_eq : Cert.Spec.z0 = 0 := Ideal.ofBits_zero_f32

def idxV (t : Cert.Spec.TL) : (⟨2, ![262144, 1]⟩ : Shape).Idx → BitVec 32 :=
  broadcastInDim S262144x1 ![0] bcast_S262144_S262144x1_0 (shapeCast S262144 t shapeCasts_S1x262144_S262144)

theorem idxV_apply (t : Cert.Spec.TL) (n : Fin 262144) : idxV t (ix2 n 0) = t (ix2 0 n) := by
  unfold idxV
  rw [broadcastInDim_apply _ bcast_S262144_S262144x1_0 _ (ix2 n 0) (ix1 n) (fun a => by match a with | ⟨0, _⟩ => rfl)]
  exact shapeCast_apply t shapeCasts_S1x262144_S262144 (ix1 n) (ix2 0 n)
    (by rewrite [Shape.rowMajor_val_two, Shape.rowMajor_val_one]; show 0 * 262144 + n.val = n.val; omega)

def safeV (t : Cert.Spec.TL) : (⟨1, ![128]⟩ : Shape).Idx → EReal :=
  maximumf
    (Host.scatterAdd (F := Ideal) (φ := .f32) scatter_S128_S262144x1_S262144_n_0_0_1
      (broadcastInDim S128 ![] bcast_S_S128 (constant (F := Ideal) S_ .f32 0x00000000#32))
      (idxV t)
      (broadcastInDim S262144 ![] bcast_S_S262144 (constant (F := Ideal) S_ .f32 0x3F800000#32)))
    (broadcastInDim S128 ![] bcast_S_S128 (constant (F := Ideal) S_ .f32 0x3F800000#32))

theorem cnt_read (t : Cert.Spec.TL) (idx : (⟨2, ![262144, 1]⟩ : Shape).Idx → BitVec 32) (upd : (⟨1, ![262144]⟩ : Shape).Idx → EReal)
    (hidx : ∀ n : Fin 262144, idx (ix2 n 0) = t (ix2 0 n)) (hupd : ∀ n : Fin 262144, upd (ix1 n) = Cert.Spec.one) (m : Fin 128) :
    (∑ n : Fin 262144, if (idx (ix2 n 0)).toInt = (m.val : Int) then upd (ix1 n) else 0) = Cert.Spec.cnt t m.val := by
  unfold Cert.Spec.cnt Cert.Spec.segSum Cert.Spec.lab
  exact Finset.sum_congr rfl fun n _ => by rw [hidx n, hupd n]

theorem safeV_apply (t : Cert.Spec.TL) (m : Fin 128) : safeV t (ix1 m) = Cert.Spec.safe t m.val := by
  unfold safeV
  rw [maximumf_apply, Cert.Reads.scatterK_apply,
    cnt_read t _ _ (idxV_apply t) (fun n => bcast_const_apply bcast_S_S262144 _ (ix1 n)) m,
    bcast_const_apply, bcast_const_apply, Ideal.ofBits_zero_f32, zero_add]
  rfl

def muV (P : (⟨3, ![2, 128, 128]⟩ : Shape).Idx → EReal) (s : (⟨1, ![128]⟩ : Shape).Idx → EReal) :
    (⟨2, ![128, 128]⟩ : Shape).Idx → EReal :=
  Host.divf
    (Host.reduceAdd (F := Ideal) (φ := .f32) P (constant (F := Ideal) S_ .f32 0x00000000#32) reducesTo_S2x128x128_S128x128_d0 h_S_)
    (broadcastInDim S128x128 ![0, 1] bcast_S128x1_S128x128_0_1 (broadcastInDim S128x1 ![0] bcast_S128_S128x1_0 s))

theorem muV_apply (P : (⟨3, ![2, 128, 128]⟩ : Shape).Idx → EReal) (s : (⟨1, ![128]⟩ : Shape).Idx → EReal) (a k : Fin 128) :
    muV P s (ix2 a k) = Ideal.div (Cert.Spec.z0 + ∑ c : Fin 2, P (ix3 c a k)) (s (ix1 a)) := by
  unfold muV
  show Ideal.div _ _ = _
  congr 1
  · simp only [Host.reduceAdd, Ideal.hostReduceAdd_def]
    rw [Ideal.hostReduceAdd_single reducesTo_S2x128x128_S128x128_d0 (by decide)]
    refine congrArg (_ + ·) (Finset.sum_congr rfl fun c _ => ?_)
    exact congrArg P (funext fun b => Fin.ext (by match b with | ⟨0, _⟩ => rfl | ⟨1, _⟩ => rfl | ⟨2, _⟩ => rfl))
  · rw [broadcastInDim_apply _ bcast_S128x1_S128x128_0_1 _ (ix2 a k) (ix2 a 0)
      (fun b => by match b with | ⟨0, _⟩ => rfl | ⟨1, _⟩ => rfl)]
    exact broadcastInDim_apply _ bcast_S128_S128x1_0 s (ix2 a 0) (ix1 a) (fun b => by match b with | ⟨0, _⟩ => rfl)

def msqV (M : (⟨2, ![128, 128]⟩ : Shape).Idx → EReal) : (⟨2, ![1, 128]⟩ : Shape).Idx → EReal :=
  broadcastInDim S1x128 ![1] bcast_S128_S1x128_1
    (Host.reduceAdd (F := Ideal) (φ := .f32) (mulf M M) (constant (F := Ideal) S_ .f32 0x00000000#32) reducesTo_S128x128_S128_d1 h_S_)

theorem msqV_apply (M : (⟨2, ![128, 128]⟩ : Shape).Idx → EReal) (m : Fin 128) :
    msqV M (ix2 0 m) = Cert.Spec.z0 + ∑ k : Fin 128, M (ix2 m k) * M (ix2 m k) := by
  unfold msqV
  rw [broadcastInDim_apply _ bcast_S128_S1x128_1 _ (ix2 0 m) (ix1 m) (fun b => by match b with | ⟨0, _⟩ => rfl)]
  simp only [Host.reduceAdd, Ideal.hostReduceAdd_def]
  rw [Ideal.hostReduceAdd_single reducesTo_S128x128_S128_d1 (by decide)]
  refine congrArg (_ + ·) (Finset.sum_congr rfl fun k _ => ?_)
  have e : (Shape.Reduces.lift (s := S128x128) (t := S128) (a := 1) (by decide) (ix1 m) k) = ix2 m k :=
    funext fun b => Fin.ext (by match b with | ⟨0, _⟩ => rfl | ⟨1, _⟩ => rfl)
  exact congrArg (fun i => M i * M i) e

def aV (Q : (⟨3, ![2, 1, 128]⟩ : Shape).Idx → EReal) (s : (⟨1, ![128]⟩ : Shape).Idx → EReal) : (⟨1, ![19]⟩ : Shape).Idx → EReal :=
  extractStridedSlice S19 ![1]
    (Host.divf
      (Host.reduceAdd (F := Ideal) (φ := .f32) (shapeCast S2x128 Q shapeCasts_S2x1x128_S2x128)
        (constant (F := Ideal) S_ .f32 0x00000000#32) reducesTo_S2x128_S128_d0 h_S_)
      s)
    slices_S128_S19_1

theorem aV_apply (Q : (⟨3, ![2, 1, 128]⟩ : Shape).Idx → EReal) (s : (⟨1, ![128]⟩ : Shape).Idx → EReal) (j : Fin 19) :
    aV Q s (ix1 j) = Ideal.div (Cert.Spec.z0 + ∑ c : Fin 2, Q (ix3 c 0 ⟨j.val + 1, by omega⟩)) (s (ix1 ⟨j.val + 1, by omega⟩)) := by
  unfold aV
  rw [extractStridedSlice_apply _ _ slices_S128_S19_1 (ix1 j) (ix1 ⟨j.val + 1, by omega⟩)
    (fun b => by match b with | ⟨0, _⟩ => exact Nat.add_comm _ _)]
  show Ideal.div _ _ = _
  congr 1
  simp only [Host.reduceAdd, Ideal.hostReduceAdd_def]
  rw [Ideal.hostReduceAdd_single reducesTo_S2x128_S128_d0 (by decide)]
  refine congrArg (_ + ·) (Finset.sum_congr rfl fun c _ => ?_)
  exact shapeCast_apply Q shapeCasts_S2x1x128_S2x128 _ (ix3 c 0 ⟨j.val + 1, by omega⟩)
    (by rewrite [Shape.rowMajor_val_three, Shape.rowMajor_val_two]
        show (c.val * 1 + 0) * 128 + (j.val + 1) = c.val * 128 + (j.val + 1); omega)

def bV (M : (⟨2, ![128, 128]⟩ : Shape).Idx → EReal) : (⟨2, ![19, 128]⟩ : Shape).Idx → EReal :=
  extractStridedSlice S19x128 ![1, 0] M slices_S128x128_S19x128_1_0

theorem bV_apply (M : (⟨2, ![128, 128]⟩ : Shape).Idx → EReal) (j : Fin 19) (k : Fin 128) :
    bV M (ix2 j k) = M (ix2 ⟨j.val + 1, by omega⟩ k) := by
  unfold bV
  exact extractStridedSlice_apply _ M slices_S128x128_S19x128_1_0 (ix2 j k) (ix2 ⟨j.val + 1, by omega⟩ k)
    (fun b => by match b with | ⟨0, _⟩ => exact Nat.add_comm _ _ | ⟨1, _⟩ => exact (Nat.zero_add _).symm)

abbrev at24 (Y : Valuation τ sig (Elt Ideal)) : FVec Ideal S2x1x128 .f32 := Y (Proc.devRef .tc main_v24)
abbrev at8 (Y : Valuation τ sig (Elt Ideal)) : FVec Ideal S128 .f32 := Y (Proc.devRef .tc main_v8)
abbrev at11 (Y : Valuation τ sig (Elt Ideal)) : FVec Ideal S128x128 .f32 := Y (Proc.devRef .tc main_v11)

theorem h1_v8_eq (X : Valuation τ sig (Elt Ideal)) :
    StableHlo.after hostOps1 X (Proc.devRef .tc main_v8) = safeV (X (Proc.devRef .tc main_arg1)) := by
  after_results
  rfl

theorem h1_v8 (X : Valuation τ sig (Elt Ideal)) (m : Fin 128) :
    at8 (StableHlo.after hostOps1 X) (ix1 m) = Cert.Spec.safe (X (Proc.devRef .tc main_arg1)) m.val :=
  (congrFun (h1_v8_eq X) (ix1 m)).trans (safeV_apply _ m)

theorem h1_v11_eq (X : Valuation τ sig (Elt Ideal)) :
    StableHlo.after hostOps1 X (Proc.devRef .tc main_v11)
      = muV (X (Proc.devRef .tc main_v0)) (safeV (X (Proc.devRef .tc main_arg1))) := by
  after_results
  rfl

theorem sum_P0 (t : Cert.Spec.TL) (e : Cert.Spec.TE) (a k : Fin 128) :
    ∑ c : Fin 2, Cert.Spec.P0 t e (ix3 c a k) = Cert.Spec.sumE t e a.val k :=
  Cert.Spec.halves_segSum t a.val fun n => e (ix3 0 n k)

theorem h1_v11 (X : Valuation τ sig (Elt Ideal))
    (h0 : X (Proc.devRef .tc main_v0) = Cert.Spec.P0 (X (Proc.devRef .tc main_arg1)) (X (Proc.devRef .tc main_arg2))) :
    StableHlo.after hostOps1 X (Proc.devRef .tc main_v11)
      = Cert.Spec.muK (X (Proc.devRef .tc main_arg1)) (X (Proc.devRef .tc main_arg2)) := by
  refine (h1_v11_eq X).trans ?_
  rw [h0]
  funext j
  obtain ⟨a, k, rfl⟩ : ∃ (a : Fin 128) (k : Fin 128), j = ix2 a k := ⟨j 0, j 1, eq_ix2 j⟩
  rw [muV_apply, safeV_apply, sum_P0, z0_eq, zero_add]
  rfl

theorem h1_v23_eq (X : Valuation τ sig (Elt Ideal)) :
    StableHlo.after hostOps1 X (Proc.devRef .tc main_v23)
      = msqV (muV (X (Proc.devRef .tc main_v0)) (safeV (X (Proc.devRef .tc main_arg1)))) := by
  after_results
  rfl

theorem h1_v23 (X : Valuation τ sig (Elt Ideal))
    (h0 : X (Proc.devRef .tc main_v0) = Cert.Spec.P0 (X (Proc.devRef .tc main_arg1)) (X (Proc.devRef .tc main_arg2))) :
    StableHlo.after hostOps1 X (Proc.devRef .tc main_v23)
      = Cert.Spec.msqK (X (Proc.devRef .tc main_arg1)) (X (Proc.devRef .tc main_arg2)) := by
  refine (h1_v23_eq X).trans ?_
  have e11 := (h1_v11_eq X).symm.trans (h1_v11 X h0)
  rw [e11]
  funext j
  obtain ⟨z, m, rfl⟩ : ∃ (z : Fin 1) (m : Fin 128), j = ix2 z m := ⟨j 0, j 1, eq_ix2 j⟩
  obtain rfl : z = 0 := Subsingleton.elim _ _
  rw [msqV_apply, z0_eq, zero_add]
  rfl

theorem h1_v22 (X : Valuation τ sig (Elt Ideal)) :
    StableHlo.after hostOps1 X (Proc.devRef .tc main_v22) = Cert.Tail.gS (F := Ideal) (X (Proc.devRef .tc main_arg0)) := by
  after_results
  rfl

def A (Y : Valuation τ sig (Elt Ideal)) : FVec Ideal S19 .f32 := aV (at24 Y) (at8 Y)
def B (Y : Valuation τ sig (Elt Ideal)) : FVec Ideal S19x128 .f32 := bV (at11 Y)

theorem A_apply (Y : Valuation τ sig (Elt Ideal)) (j : Fin 19) :
    A Y (ix1 j) = Ideal.div (Cert.Spec.z0 + ∑ c : Fin 2, at24 Y (ix3 c 0 ⟨j.val + 1, by omega⟩))
      (at8 Y (ix1 ⟨j.val + 1, by omega⟩)) :=
  aV_apply _ _ j

theorem B_apply (Y : Valuation τ sig (Elt Ideal)) (j : Fin 19) (k : Fin 128) :
    B Y (ix2 j k) = at11 Y (ix2 ⟨j.val + 1, by omega⟩ k) :=
  bV_apply _ j k

set_option maxHeartbeats 2000000 in

theorem h2_v60 (Y : Valuation τ sig (Elt Ideal)) :
    StableHlo.after hostOps2_2 (StableHlo.after hostOps2_1 (StableHlo.after hostOps2 Y)) (Proc.devRef .tc main_v60)
      = Cert.Tail.tailT (F := Ideal) (A Y) (B Y) := by
  after_results_simp
  rfl

end Cert.KernelIdeal.Val

end
-- ==== Proof.KI.Final.lean ====
import proofs.«416506_j31988916420713_3_alg».proof.Proof.KI.Launch
import proofs.«416506_j31988916420713_3_alg».proof.Proof.Spec
import proofs.«416506_j31988916420713_3_alg».proof.Proof.Out
import proofs.«416506_j31988916420713_3_alg».proof.Proof.Algebra
import proofs.«416506_j31988916420713_3_alg».proof.Proof.Bridge0
import proofs.«416506_j31988916420713_3_alg».proof.Proof.Tail
import proofs.«416506_j31988916420713_3_alg».proof.Proof.RefRun
import proofs.«416506_j31988916420713_3_alg».proof.Proof.RVal
import proofs.«416506_j31988916420713_3_alg».proof.Proof.KI.KVal0
import proofs.«416506_j31988916420713_3_alg».proof.Proof.KI.KVal1
import proofs.«416506_j31988916420713_3_alg».proof.Proof.KI.KHost
import Idealize.ShloMosaic.Lib.ValueIdx

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open scoped BigOperators

variable (m : (ℓ : Loc nD τ sig) → Buf (Elt Ideal) ℓ) (c : Dev nD)

abbrev tA : TL := m ((c : Thread nD τ).loc main_arg1)
abbrev eA : TE := m ((c : Thread nD τ).loc main_arg2)
abbrev pA : FVec Ideal S1x262144x3 .f32 := m ((c : Thread nD τ).loc main_arg0)

abbrev gA : TG := Cert.Tail.gS (F := Ideal) (pA m c)

theorem P1_congr {t t' : TL} {g g' : TG} {e e' : TE} {mu mu' : TM} {q q' : TQ}
    (h1 : t = t') (h2 : g = g') (h3 : e = e') (h4 : mu = mu') (h5 : q = q') : P1 t g e mu q = P1 t' g' e' mu' q' := by
  subst h1 h2 h3 h4 h5; rfl

theorem X1_t : X1 m c (Proc.devRef .tc main_arg1) = tA m c := X1_of m c main_arg1 (by decide)
theorem X1_e : X1 m c (Proc.devRef .tc main_arg2) = eA m c := X1_of m c main_arg2 (by decide)
theorem X1_p : X1 m c (Proc.devRef .tc main_arg0) = pA m c := X1_of m c main_arg0 (by decide)

theorem X1_P0 : X1 m c (Proc.devRef .tc main_v0) = P0 (tA m c) (eA m c) := (X1_v0 m c).trans (final0 (E0 m) c)

theorem X2_t : X2 m c (Proc.devRef .tc main_arg1) = tA m c := (X2_of m c main_arg1 (by decide)).trans (X1_t m c)
theorem X2_e : X2 m c (Proc.devRef .tc main_arg2) = eA m c := (X2_of m c main_arg2 (by decide)).trans (X1_e m c)
theorem X1_h0 : X1 m c (Proc.devRef .tc main_v0)
    = P0 (X1 m c (Proc.devRef .tc main_arg1)) (X1 m c (Proc.devRef .tc main_arg2)) :=
  (X1_P0 m c).trans (congrArg₂ P0 (X1_t m c).symm (X1_e m c).symm)
theorem X2_v11 : X2 m c (Proc.devRef .tc main_v11) = muK (tA m c) (eA m c) :=
  (h1_v11 (X1 m c) (X1_h0 m c)).trans (congrArg₂ muK (X1_t m c) (X1_e m c))
theorem X2_v23 : X2 m c (Proc.devRef .tc main_v23) = msqK (tA m c) (eA m c) :=
  (h1_v23 (X1 m c) (X1_h0 m c)).trans (congrArg₂ msqK (X1_t m c) (X1_e m c))
theorem X2_v22 : X2 m c (Proc.devRef .tc main_v22) = gA m c :=
  (h1_v22 (X1 m c)).trans (congrArg (Cert.Tail.gS (F := Ideal)) (X1_p m c))
theorem X2_v8 (mm : Fin 128) :
    at8 (X2 m c) (ix1 mm) = safe (tA m c) mm.val :=
  (h1_v8 (X1 m c) mm).trans (congrArg (fun t => safe t mm.val) (X1_t m c))

theorem X3_P1 : at24 (X3 m c)
    = P1 (tA m c) (gA m c) (eA m c) (muK (tA m c) (eA m c)) (msqK (tA m c) (eA m c)) :=
  (X3_v24 m c).trans <| (final1 (E1 m) c).trans <|
    P1_congr (X2_t m c) (X2_v22 m c) (X2_e m c) (X2_v11 m c) (X2_v23 m c)

theorem A_eq (he : Cert.Algebra.FiniteE (eA m c)) : A (X3 m c) = Aspec (tA m c) (gA m c) (eA m c) := by
  funext i
  obtain ⟨j, rfl⟩ : ∃ j, i = ix1 j := ⟨i 0, eq_ix1 i⟩
  refine (A_apply (X3 m c) j).trans ?_
  have hnum : Cert.Spec.z0 + ∑ c' : Fin 2, at24 (X3 m c) (ix3 c' 0 ⟨j.val + 1, by omega⟩)
      = segSum (tA m c) (j.val + 1) (ppRef (tA m c) (gA m c) (eA m c) (j.val + 1)) :=
    (congrArg (Cert.Spec.z0 + ·) (Finset.sum_congr rfl fun c' _ => congrFun (X3_P1 m c) (ix3 c' 0 ⟨j.val + 1, by omega⟩))).trans
      (Cert.Bridge0.loss_halves (tA m c) (gA m c) (eA m c) he ⟨j.val + 1, by omega⟩)
  have hden : at8 (X3 m c) (ix1 ⟨j.val + 1, by omega⟩) = safe (tA m c) (j.val + 1) :=
    (congrFun (X3_of m c main_v8 (by decide)) (ix1 ⟨j.val + 1, by omega⟩)).trans (X2_v8 m c ⟨j.val + 1, by omega⟩)
  exact congrArg₂ Ideal.div hnum hden

theorem B_eq : B (X3 m c) = Bspec (tA m c) (eA m c) := by
  funext i
  obtain ⟨j, k, rfl⟩ : ∃ j k, i = ix2 j k := ⟨i 0, i 1, eq_ix2 i⟩
  exact (B_apply (X3 m c) j k).trans <|
    (congrFun (X3_of m c main_v11 (by decide)) (ix2 ⟨j.val + 1, by omega⟩ k)).trans <|
      congrFun (X2_v11 m c) (ix2 ⟨j.val + 1, by omega⟩ k)

theorem result_eq (he : Cert.Algebra.FiniteE (m ((c : Thread nD τ).loc main_arg2))) :
    X6 m c (Proc.devRef .tc main_v60)
      = Cert.Tail.tailT (F := Ideal) (Aspec (tA m c) (gA m c) (eA m c)) (Bspec (tA m c) (eA m c)) :=
  (h2_v60 (X3 m c)).trans (congrArg₂ (Cert.Tail.tailT (F := Ideal)) (A_eq m c he) (B_eq m c))

end Cert.KernelIdeal.Val

namespace Cert.ReferenceIdeal.RefVal

open Cert.ReferenceIdeal Cert.Spec
open Idealize.ShloMosaic Idealize.ShloMosaic.TcCoe Idealize.ShloMosaic.ValueIdx Idealize.SL.Sem

variable (m' : (ℓ : Loc nD τ sig) → Buf (Elt Ideal) ℓ) (c : Dev nD)

theorem ref_eq :
    Cert.ReferenceIdeal.ValueP.res_main_v77 m' c
      = Cert.Tail.tailT (F := Ideal)
          (Aspec (m' ((c.tc : Thread nD τ).loc main_arg1)) (Cert.Tail.gS (F := Ideal) (m' ((c.tc : Thread nD τ).loc main_arg0)))
            (m' ((c.tc : Thread nD τ).loc main_arg2)))
          (Bspec (m' ((c.tc : Thread nD τ).loc main_arg1)) (m' ((c.tc : Thread nD τ).loc main_arg2))) := by
  refine (r_out (F := Ideal) m' c).trans (congrArg₂ (Cert.Tail.tailT (F := Ideal)) ?_ ?_)
  · funext i
    obtain ⟨j, rfl⟩ : ∃ j, i = ix1 j := ⟨i 0, eq_ix1 i⟩
    exact (AR_apply _ _ _ j).trans (r_v44 _ _ _ ⟨j.val + 1, by omega⟩)
  · funext i
    obtain ⟨j, k, rfl⟩ : ∃ j k, i = ix2 j k := ⟨i 0, i 1, eq_ix2 i⟩
    exact (BR_apply _ _ j k).trans (r_v22 _ _ ⟨j.val + 1, by omega⟩ k)

end Cert.ReferenceIdeal.RefVal

namespace Cert.KernelIdeal.Val

open Idealize.ShloMosaic Idealize.ShloMosaic.TcCoe Idealize.SL.Sem

-- Both programs end in one expression of the argument arrays, and the memories agree on those.
theorem ref_eq_kernel
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (he : Cert.Algebra.FiniteE (m ((c.tc : Thread Cert.KernelIdeal.nD Cert.KernelIdeal.τ).loc Cert.KernelIdeal.main_arg2))) :
    Cert.ReferenceIdeal.ValueP.res_main_v77 m' c
      = Cert.KernelIdeal.Hand.X6 m c (Proc.devRef .tc Cert.KernelIdeal.main_v60) := by
  refine (Cert.ReferenceIdeal.RefVal.ref_eq m' c).trans ((result_eq m c he).trans ?_).symm
  obtain ⟨h0, h1, h2⟩ := hag
  exact congrArg₂ (Cert.Tail.tailT (F := Ideal))
    (show Cert.Spec.Aspec (tA m c) (gA m c) (eA m c) = _ from by
      unfold gA pA tA eA; rw [← h0, ← h1, ← h2])
    (show Cert.Spec.Bspec (tA m c) (eA m c) = _ from by
      unfold tA eA; rw [← h1, ← h2])

end Cert.KernelIdeal.Val

end
-- ==== Proof.lean ====
import proofs.«416506_j31988916420713_3_alg».proof.Defs
import proofs.«416506_j31988916420713_3_alg».proof.Proof.Gen.Kernel
import proofs.«416506_j31988916420713_3_alg».proof.Proof.Gen.KernelIdeal
import proofs.«416506_j31988916420713_3_alg».proof.Proof.Gen.ReferenceIdeal
import proofs.«416506_j31988916420713_3_alg».proof.Proof.Gen.Pre_finite_inputs
import proofs.«416506_j31988916420713_3_alg».proof.Proof.RefRun
import proofs.«416506_j31988916420713_3_alg».proof.Proof.Finite
import proofs.«416506_j31988916420713_3_alg».proof.Proof.KI.Launch
import proofs.«416506_j31988916420713_3_alg».proof.Proof.KI.Final
import Idealize.ShloMosaic.Lib.Tactic
import Idealize.ShloMosaic.Adequacy
import Idealize.ShloMosaic.Init

noncomputable section

namespace Cert.Proof

open Idealize.ShloMosaic Idealize.ShloMosaic.TcCoe Idealize.SL.Sem Idealize.ShloMosaic.Tactic

variable {F : FTy → Type} [FloatOps F]

-- The word-level program is the idealized program's text under another name, so the two are the same terms.
theorem defs_eq : Cert.Kernel.defs (F := F) = Cert.KernelIdeal.defs (F := F) := by sl_kernel_rfl
theorem main_eq : Cert.Kernel.main (F := F) = Cert.KernelIdeal.main (F := F) := by sl_kernel_rfl

-- So the launch, proved for any float family, read at words is the word-level program's frame.
theorem frameKernel :
    Cert.frame_Kernel (hKernel := Cert.Kernel.Gen.facts) (hPre_finite_inputs := Cert.Pre_finite_inputs.Gen.facts) :=
  fun m ρ _ => by rw [defs_eq, main_eq]; exact Cert.KernelIdeal.Hand.frame (F := Bits) m ρ

theorem frameKernelIdeal :
    Cert.frame_KernelIdeal (hKernelIdeal := Cert.KernelIdeal.Gen.facts) (hPre_finite_inputs := Cert.Pre_finite_inputs.Gen.facts) :=
  fun m ρ _ => Cert.KernelIdeal.Hand.frame m ρ

theorem frameReferenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

-- Both results are one expression of the argument arrays once every embedding entry is a real number, which the precondition gives.
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Hand.X6 m c (Proc.devRef .tc Cert.KernelIdeal.main_v60), ?_, ?_⟩
  · exact Cert.KernelIdeal.Hand.Launch.run_post m ρ fun s h c =>
      ⟨h c _ (Cert.KernelIdeal.Hand.mem_uc Cert.KernelIdeal.main_v60 (by decide)),
        (h c _ (Cert.KernelIdeal.Hand.mem_uc Cert.KernelIdeal.main_arg0 (by decide))).trans (Cert.KernelIdeal.Hand.X6_main_arg0 m c),
        (h c _ (Cert.KernelIdeal.Hand.mem_uc Cert.KernelIdeal.main_arg1 (by decide))).trans (Cert.KernelIdeal.Hand.X6_main_arg1 m c),
        (h c _ (Cert.KernelIdeal.Hand.mem_uc Cert.KernelIdeal.main_arg2 (by decide))).trans (Cert.KernelIdeal.Hand.X6_main_arg2 m c)⟩
  · refine (θ_run Cert.ReferenceIdeal.defs _ _).mono (fun _ h c => ⟨(h c).1.trans ?_, (h c).2⟩)
      (Cert.ReferenceIdeal.ValueP.run (F := Ideal) m' ρ')
    exact Cert.KernelIdeal.Val.ref_eq_kernel m m' c (hagree c) fun i => Cert.Finite.emb_real _ _ _ (hpre c) i

theorem claim : Cert.Claim :=
  ⟨Cert.Kernel.Gen.facts, Cert.KernelIdeal.Gen.facts, Cert.ReferenceIdeal.Gen.facts, Cert.Pre_finite_inputs.Gen.facts,
    frameKernel, frameKernelIdeal, frameReferenceIdeal, trivial, algebraic⟩

end Cert.Proof

end
